-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S32x8 : S_.BroadcastsInDim S32x8 (![] : Fin 0 → Fin S32x8.rank)
  reducesTo_S32x8_S_d0_1 : S32x8.ReducesTo [0, 1] S_
  bcast_S_S8x8 : S_.BroadcastsInDim S8x8 (![] : Fin 0 → Fin S8x8.rank)
  reducesTo_S8x8_S_d0_1 : S8x8.ReducesTo [0, 1] S_

variable [Facts]

def fn_part3 {F : FTy → Type} [FloatOps F] (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  main_v53

def fn_part2 {F : FTy → Type} [FloatOps F] (main_arg7 : FVec F S1024 .f32) (main_arg8 : FVec F S32x8 .f32) (main_arg9 : FVec F S8x8 .f32) (main_arg10 : FVec F S8x8 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S32x8 .f32 := Host.absf main_arg8
  let main_cst_14 : FVec F S_ .f32 := constant S_ .f32 0x7F800000#32
  let main_v40 : FVec F S32x8 .f32 := broadcastInDim S32x8 ![] bcast_S_S32x8 main_cst_14
  let main_v41 : IVec S32x8 1 := cmpf .olt main_v39 main_v40
  let main_c_15 : IVec S_ 1 := constantI S_ 1 1#1
  let main_v42 : IVec S_ 1 := (fun x v => Host.reduce IntOp.andi x v reducesTo_S32x8_S_d0_1 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8x8 .f32 := Host.absf main_arg10
  let main_cst_18 : FVec F S_ .f32 := constant S_ .f32 0x7F800000#32
  let main_v50 : FVec F S8x8 .f32 := broadcastInDim S8x8 ![] bcast_S_S8x8 main_cst_18
  fn_part3 (F := F) main_v48 main_v49 main_v50

def fn_part1 {F : FTy → Type} [FloatOps F] (main_arg4 : FVec F S4096x4096 .f32) (main_arg5 : FVec F S1024x4096 .f32) (main_arg6 : FVec F S1024 .f32) (main_arg7 : FVec F S1024 .f32) (main_arg8 : FVec F S32x8 .f32) (main_arg9 : FVec F S8x8 .f32) (main_arg10 : FVec F S8x8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x4096x1024 .f32) (main_arg1 : FVec F S4096x1024 .f32) (main_arg2 : FVec F S1024x1024 .f32) (main_arg3 : FVec F S1024x1024 .f32) (main_arg4 : FVec F S4096x4096 .f32) (main_arg5 : FVec F S1024x4096 .f32) (main_arg6 : FVec F S1024 .f32) (main_arg7 : FVec F S1024 .f32) (main_arg8 : FVec F S32x8 .f32) (main_arg9 : FVec F S8x8 .f32) (main_arg10 : FVec F S8x8 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S32x128x8 : Shape := ⟨3, ![32, 128, 8]⟩
abbrev S4096x8 : Shape := ⟨2, ![4096, 8]⟩
abbrev S4096x8x128 : Shape := ⟨3, ![4096, 8, 128]⟩
abbrev S8x128x8 : Shape := ⟨3, ![8, 128, 8]⟩
abbrev S1024x8 : Shape := ⟨2, ![1024, 8]⟩
abbrev S1024x8x128 : Shape := ⟨3, ![1024, 8, 128]⟩
abbrev S32768x1024 : Shape := ⟨2, ![32768, 1024]⟩
abbrev S32768x4096 : Shape := ⟨2, ![32768, 4096]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 42
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S32x8, .f32⟩
  | .hbm, ⟨9, _⟩ => ⟨S8x8, .f32⟩
  | .hbm, ⟨10, _⟩ => ⟨S8x8, .f32⟩
  | .hbm, ⟨11, _⟩ => ⟨S32x128x8, .f32⟩
  | .hbm, ⟨12, _⟩ => ⟨S4096x8, .f32⟩
  | .hbm, ⟨13, _⟩ => ⟨S4096x8x128, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S8x128x8, .f32⟩
  | .hbm, ⟨18, _⟩ => ⟨S1024x8, .f32⟩
  | .hbm, ⟨19, _⟩ => ⟨S1024x8x128, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S8x128x8, .f32⟩
  | .hbm, ⟨24, _⟩ => ⟨S1024x8, .f32⟩
  | .hbm, ⟨25, _⟩ => ⟨S1024x8x128, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S4096x4096, .bf16⟩
  | .hbm, ⟨30, _⟩ => ⟨S1024x4096, .bf16⟩
  | .hbm, ⟨31, _⟩ => ⟨S32768x1024, .f32⟩
  | .hbm, ⟨32, _⟩ => ⟨S32768x1024, .bf16⟩
  | .hbm, ⟨33, _⟩ => ⟨S32768x4096, .bf16⟩
  | .hbm, ⟨34, _⟩ => ⟨S32768x4096, .bf16⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S1x1024, .f32⟩
  | .hbm, ⟨40, _⟩ => ⟨S32768x1024, .f32⟩
  | .hbm, ⟨41, _⟩ => ⟨S8x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | .local _ .vmem, ⟨36, _⟩ => ⟨S1x1024, .f32⟩
  | .local _ .vmem, ⟨37, _⟩ => ⟨S512x1024, .f32⟩
  | .local _ .vmem, ⟨38, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![32, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![32, 1, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S32x8_S32x128x8_0_2 : S32x8.BroadcastsInDim S32x128x8 (![0, 2] : Fin 2 → Fin S32x128x8.rank)
  shapeCasts_S32x128x8_S4096x8 : S32x128x8.ShapeCasts S4096x8
  bcast_S4096x8_S4096x8x128_0_1 : S4096x8.BroadcastsInDim S4096x8x128 (![0, 1] : Fin 2 → Fin S4096x8x128.rank)
  shapeCasts_S4096x8x128_S4096x1024 : S4096x8x128.ShapeCasts S4096x1024
  bitsLt_bf16_f32 : FTy.bits .bf16 < FTy.bits .f32
  bcast_S8x8_S8x128x8_0_2 : S8x8.BroadcastsInDim S8x128x8 (![0, 2] : Fin 2 → Fin S8x128x8.rank)
  shapeCasts_S8x128x8_S1024x8 : S8x128x8.ShapeCasts S1024x8
  bcast_S1024x8_S1024x8x128_0_1 : S1024x8.BroadcastsInDim S1024x8x128 (![0, 1] : Fin 2 → Fin S1024x8x128.rank)
  shapeCasts_S1024x8x128_S1024x1024 : S1024x8x128.ShapeCasts S1024x1024
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8x4096x1024 : S32768x1024.ShapeCasts S8x4096x1024
  dot_S1024x1024_S1024x1024_S1024x1024_1_1_0_0_n_n_wf : DotDims.WF S1024x1024 S1024x1024 S1024x1024 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .bf16 = 32 ∨ (Rect.block (s := S32768x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x4096.size a
  hwx0_2 : ∀ i : grid0.Coords, EltTy.bits .bf16 = 32 ∨ (Rect.block (s := S32768x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S32768x4096.size a
  hwx1_0 : ∀ i : grid1.Coords, EltTy.bits .bf16 = 32 ∨ (Rect.block (s := S32768x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S32768x4096.size a
  hwx1_2 : ∀ i : grid1.Coords, EltTy.bits .bf16 = 32 ∨ (Rect.block (s := S32768x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S32768x4096.size a
  hwx2_0 : ∀ i : grid2.Coords, EltTy.bits .bf16 = 32 ∨ (Rect.block (s := S32768x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x4096.size a
  hwx2_1 : ∀ i : grid2.Coords, EltTy.bits .bf16 = 32 ∨ (Rect.block (s := S1024x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S32768x1024.size a
  hwx2_2 : ∀ i : grid2.Coords, EltTy.bits .f32 = 32 ∨ (Rect.block (s := S32768x1024) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S32768x1024.size a
  hwx3_0 : ∀ i : grid3.Coords, EltTy.bits .bf16 = 32 ∨ (Rect.block (s := S32768x1024) S1024x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S1024x1024.size a
  hwx3_2 : ∀ i : grid3.Coords, EltTy.bits .bf16 = 32 ∨ (Rect.block (s := S1024x1024) S1024x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S32768x1024.size a
  hwx3_3 : ∀ i : grid3.Coords, EltTy.bits .f32 = 32 ∨ (Rect.block (s := S32768x1024) S1024x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S32768x1024.size a
  hwx3_4 : ∀ i : grid3.Coords, EltTy.bits .f32 = 32 ∨ (Rect.block (s := S32768x1024) S1024x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S32768x1024.size a
  hwx4_0 : ∀ i : grid4.Coords, EltTy.bits .f32 = 32 ∨ (Rect.block (s := S32768x1024) S512x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S32768x1024.size a
  hwx4_1 : ∀ i : grid4.Coords, EltTy.bits .f32 = 32 ∨ (Rect.block (s := S32768x1024) S512x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S32768x1024.size a
  hwx4_2 : ∀ i : grid4.Coords, EltTy.bits .f32 = 32 ∨ (Rect.block (s := S32768x1024) S512x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x1024.size a
  hwx4_3 : ∀ i : grid4.Coords, EltTy.bits .f32 = 32 ∨ (Rect.block (s := S1x1024) S1x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x1024.size a ≤ S32768x1024.size a
  hwx4_5 : ∀ i : grid4.Coords, EltTy.bits .f32 = 32 ∨ (Rect.block (s := S32768x1024) S512x1024.size (cc4_transform_5 i) (hinb4_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v22) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v21) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1024x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25_0) S1024x1024.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v25_1) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v24) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25_0) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25_1) S512x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v27) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28) S512x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S32x128x8 : Shape := ⟨3, ![32, 128, 8]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x128x8 : Shape := ⟨3, ![8, 128, 8]⟩
abbrev S1024x8 : Shape := ⟨2, ![1024, 8]⟩
abbrev S1024x8x128 : Shape := ⟨3, ![1024, 8, 128]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S32x8, .f32⟩
  | .hbm, ⟨9, _⟩ => ⟨S8x8, .f32⟩
  | .hbm, ⟨10, _⟩ => ⟨S8x8, .f32⟩
  | .hbm, ⟨11, _⟩ => ⟨S32x128x8, .f32⟩
  | .hbm, ⟨12, _⟩ => ⟨S4096x8, .f32⟩
  | .hbm, ⟨13, _⟩ => ⟨S4096x8x128, .f32⟩
  | .hbm, ⟨14, _⟩ => ⟨S4096x1024, .f32⟩
  | .hbm, ⟨15, _⟩ => ⟨S4096x1024, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x1024, .f32⟩
  | .hbm, ⟨25, _⟩ => ⟨S8x128x8, .f32⟩
  | .hbm, ⟨26, _⟩ => ⟨S1024x8, .f32⟩
  | .hbm, ⟨27, _⟩ => ⟨S1024x8x128, .f32⟩
  | .hbm, ⟨28, _⟩ => ⟨S1024x1024, .f32⟩
  | .hbm, ⟨29, _⟩ => ⟨S1024x1024, .f32⟩
  | .hbm, ⟨30, _⟩ => ⟨S8x4096x1024, .f32⟩
  | .hbm, ⟨31, _⟩ => ⟨S8x128x8, .f32⟩
  | .hbm, ⟨32, _⟩ => ⟨S1024x8, .f32⟩
  | .hbm, ⟨33, _⟩ => ⟨S1024x8x128, .f32⟩
  | .hbm, ⟨34, _⟩ => ⟨S1024x1024, .f32⟩
  | .hbm, ⟨35, _⟩ => ⟨S1024x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_call1_cst : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S32x8_S32x128x8_0_2 : S32x8.BroadcastsInDim S32x128x8 (![0, 2] : Fin 2 → Fin S32x128x8.rank)
  shapeCasts_S32x128x8_S4096x8 : S32x128x8.ShapeCasts S4096x8
  bcast_S4096x8_S4096x8x128_0_1 : S4096x8.BroadcastsInDim S4096x8x128 (![0, 1] : Fin 2 → Fin S4096x8x128.rank)
  shapeCasts_S4096x8x128_S4096x1024 : S4096x8x128.ShapeCasts S4096x1024
  bcast_S_S8x4096x4096 : S_.BroadcastsInDim S8x4096x4096 (![] : Fin 0 → Fin S8x4096x4096.rank)
  bcast_S8x8_S8x128x8_0_2 : S8x8.BroadcastsInDim S8x128x8 (![0, 2] : Fin 2 → Fin S8x128x8.rank)
  shapeCasts_S8x128x8_S1024x8 : S8x128x8.ShapeCasts S1024x8
  bcast_S1024x8_S1024x8x128_0_1 : S1024x8.BroadcastsInDim S1024x8x128 (![0, 1] : Fin 2 → Fin S1024x8x128.rank)
  shapeCasts_S1024x8x128_S1024x1024 : S1024x8x128.ShapeCasts S1024x1024
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S4096x1024_S8x4096x4096_2_1_01_0_n_n_wf : DotDims.WF S8x4096x1024 S4096x1024 S8x4096x4096 [2] [1] [0, 1] [0] [] []
  dot_S8x4096x4096_S4096x4096_S8x4096x4096_2_1_01_0_n_n_wf : DotDims.WF S8x4096x4096 S4096x4096 S8x4096x4096 [2] [1] [0, 1] [0] [] []
  dot_S8x4096x4096_S1024x4096_S8x4096x1024_2_1_01_0_n_n_wf : DotDims.WF S8x4096x4096 S1024x4096 S8x4096x1024 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S4096x1024_S8x4096x4096_2_1_01_0_n_n : DotDims S8x4096x1024 S4096x1024 S8x4096x4096 where
  lhsContracting := [2]
  rhsContracting := [1]
  lhsNonContracting := [0, 1]
  rhsNonContracting := [0]
  lhsBatch := []
  rhsBatch := []
  wf := dot_S8x4096x1024_S4096x1024_S8x4096x4096_2_1_01_0_n_n_wf
def dot_S8x4096x4096_S4096x4096_S8x4096x4096_2_1_01_0_n_n : DotDims S8x4096x4096 S4096x4096 S8x4096x4096 where
  lhsContracting := [2]
  rhsContracting := [1]
  lhsNonContracting := [0, 1]
  rhsNonContracting := [0]
  lhsBatch := []
  rhsBatch := []
  wf := dot_S8x4096x4096_S4096x4096_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.K.R0.lean ====
import proofs.«105382_j64407329571549_1_alg».proof.Proof.Gen.Kernel.Launch
import proofs.«105382_j64407329571549_1_alg».proof.Proof.Gen.Kernel.Skeleton
import proofs.«105382_j64407329571549_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.R0

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The third grid axis has the single index 0, so both conditions of the body hold at every point.
theorem hcond : ∀ t : Fin cfg0.N, Scalar.cmpi .ne (Scalar.extui (Scalar.cmpi .eq (BitVec.ofNat 32 (grid0.coords t 2).val) 0#32)) 0#32 = 1#1 ∧ k0_cond2 (grid0.coords t) = 1#1 :=
  (by decide +kernel : ∀ t : Fin grid0.N, _)

theorem live : ∀ t : Fin cfg0.N, cfg0.idle 2 (grid0.coords t) = false := by decide +kernel

theorem hz : (![0, 0] : Fin 2 → Nat) = fun _ => 0 := funext fun a => by fin_cases a <;> rfl

-- Both conditions hold, so the accumulator is cleared, the product added and its maximum with zero stored: the stored block is the three payloads composed.
theorem run (c : Dev nD) {i : grid0.Coords} {arg3 arg4 arg5 : Memref sig .tc .vmem S1024x1024 .bf16} {arg6 : Memref sig .tc .vmem S1024x1024 .f32} {harg3 : arg3.IsWhole} {harg4 : arg4.IsWhole} {harg5 : arg5.IsWhole} {harg6 : arg6.IsWhole}
    (hc : Scalar.cmpi .ne (Scalar.extui (Scalar.cmpi .eq (BitVec.ofNat 32 (i 2).val) 0#32)) 0#32 = 1#1 ∧ k0_cond2 i = 1#1)
    (x0 x1 : Vec F S1024x1024 .bf16) {E : Set ℕ} {K : PUnit → sProp 𝕄} :
    iprop(owns c arg3 fullShare x0 ∗ owns c arg4 fullShare x1 ∗ (∃ d, owns c arg5 fullShare d) ∗ (∃ d, owns c arg6 fullShare d)
        ∗ (iprop(owns c arg3 fullShare x0 ∗ owns c arg4 fullShare x1 ∗ owns c arg5 fullShare (k0_pay3 (k0_pay2 x0 x1 (k0_pay1 (F := F)))) ∗ (∃ d, owns c arg6 fullShare d)) -∗ K ⟨⟩))
      ⊢ wp frame (wpE (defs₀ (F := F)) Variants.none c none) E (cc0__matmul_act_kernel i arg3 harg3 arg4 harg4 arg5 harg5 arg6 harg6) K := by
  simp only [cc0__matmul_act_kernel_eq_skeleton]; unfold cc0__matmul_act_kernel_skel
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero (S := S1024x1024) hz]
    simp only [View.readCov_cons_toLoadRect, View.readCov_unit_zero (S := S1024x1024) _ hz, View.readAt_eq_ld,
      hf0, hf1, View.ld_unit_zero (S := S1024x1024) hz]
  iexists _; iexists _; isplitr; swap; · iexact HS0
  ipureintro; rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (k0_pay2 (iblk V c 0 t) (iblk V c 1 t) (k0_pay1 (F := F)))
  Φ _ := Pipeline.ΦA spec0 c
  q _ := fullShare
  owed _ := 0

theorem A_eq (c : Dev nD) (w : Fin cfg0.W) : (dat V c).A w = V c (Pipeline.arrRef spec0 w) := rfl

theorem q_eq (c : Dev nD) (w : Fin cfg0.W) : (dat V c).q w = fullShare := rfl

theorem owed_eq (c : Dev nD) (t : Fin (cfg0.N + 1)) : (dat V c).owed t = 0 := rfl

theorem recorded_eq (c : Dev nD) (t : Fin (cfg0.N + 1)) : (dat V c).recorded t = Set.univ := rfl

-- The invariant with the accumulator split off, as the body's contract takes it.
theorem Phi_eq (c : Dev nD) (t : Fin (cfg0.N + 1)) :
    ((dat V c).Φ t : sProp 𝕄)
      = iprop(iprop(iprop((∃ d, owns c (Memref.whole cc0_scratch0) fullShare d))
          ∗ Pipeline.scopedRestBut spec0 c [cc0_scratch0])
          ∗ (∃ r, prngReg c r)) := by
  show Pipeline.ΦA spec0 c = _
  unfold Pipeline.ΦA; rw [scopedRest0_split]; simp only [owns_whole]

-- The inputs are never written, so what the body reads of them at a point is the array's block there.
theorem before_in (c : Dev nD) (t : Fin cfg0.N) : (∀ d, (dat V c).before 0 t d = iblk V c 0 t) ∧ ∀ d, (dat V c).before 1 t d = iblk V c 1 t :=
  ⟨(dat V c).before_in_eq_fetched 0 rfl (fun _ => rfl) (fun _ _ _ => rfl) (fun _ => rfl) t,
    (dat V c).before_in_eq_fetched 1 rfl (fun _ => rfl) (fun _ _ _ => rfl) (fun _ => rfl) t⟩

theorem body_obligation (c : Dev nD) : BodyObligation (dat (F := F) V c) (defs₀ (F := F)) Variants.none () Set.univ := fun t => by
  rw [bigSep_W0, bigSep_W0, live t, show (dat V c).owesAt () t.succ = (dat V c).owesAt () t.castSucc from rfl]
  simp only [Phi_eq, (before_in V c t).1, (before_in V c t).2]
  show _ ⊢ wp _ _ _ (bodyAt0 t) _
  iintro ⟨⟨⟨HS0, Hr⟩, Hg⟩, Ho, ⟨%d0, H0⟩, ⟨%d1, H1⟩, ⟨%d2, H2⟩⟩
  iapply (run c (hcond t) (iblk V c 0 t) (iblk V c 1 t))
  iframe
  isplitl [H2]; · iexists _; iexact H2
  iintro ⟨H0, H1, H2, HS0⟩
  iframe
  isplitl [H0]; · iexact H0
  isplitl [H1]; · iexact H1
  iexact H2

theorem hin (c : Dev nD) : (Pipeline.ΦA spec0 c : sProp 𝕄) ⊢ (dat V c).Φ 0 := Idealize.SL.BI.Entails.refl _

theorem hout (c : Dev nD) : (dat V c).Φ (Fin.last cfg0.N) ⊢ (Pipeline.ΦA spec0 c : sProp 𝕄) := Idealize.SL.BI.Entails.refl _

end Cert.Kernel.R0

end
-- ==== Proof.K.R1.lean ====
import proofs.«105382_j64407329571549_1_alg».proof.Proof.Gen.Kernel.Launch
import proofs.«105382_j64407329571549_1_alg».proof.Proof.Gen.Kernel.Skeleton
import proofs.«105382_j64407329571549_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.R1

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev kFirst (i : grid1.Coords) : Prop :=
  (Scalar.cmpi .ne (Scalar.extui (Scalar.cmpi .eq (BitVec.ofNat 32 (i 2).val) 0#32)) 0#32) = 1#1

-- The innermost grid coordinate has two values, so a point's parity decides each of these.
theorem pts : ∀ t : Fin cfg1.N, cfg1.idle 0 (grid1.coords t) = false
    ∧ (t.val % 2 = 0 → kFirst (grid1.coords t) ∧ ¬k1_cond2 (grid1.coords t) = 1#1 ∧ cfg1.idle 2 (grid1.coords t) = true ∧ (cfg1.win 2).flush t = false)
    ∧ (t.val % 2 = 1 → ¬kFirst (grid1.coords t) ∧ k1_cond2 (grid1.coords t) = 1#1 ∧ cfg1.idle 2 (grid1.coords t) = false) :=
  (by decide +kernel : ∀ t : Fin grid1.N, _)

theorem hz : (![0, 0] : Fin 2 → Nat) = fun _ => 0 := funext fun a => by fin_cases a <;> rfl

section Run

variable (c : Dev nD) (i : grid1.Coords) {arg3 arg4 : Memref sig .tc .vmem S1024x2048 .bf16} {arg5 : Memref sig .tc .vmem S1024x1024 .bf16}
  {arg6 : Memref sig .tc .vmem S1024x1024 .f32} (harg3 : arg3.IsWhole) (harg4 : arg4.IsWhole) (harg5 : arg5.IsWhole) (harg6 : arg6.IsWhole)
  (x0 x1 : Vec F S1024x2048 .bf16)

-- k = 0: whatever the accumulator held, it ends at the update of the zero block.
theorem runFirst (hc0 : kFirst i) (hc1 : ¬k1_cond2 i = 1#1) (xi2 : Vec F S1024x1024 .bf16) (E : Set ℕ) (K : PUnit → sProp 𝕄) :
    iprop(owns c.tc arg3 fullShare x0 ∗ owns c.tc arg4 fullShare x1 ∗ owns c.tc arg5 fullShare xi2 ∗ (∃ d, owns c.tc arg6 fullShare d)
        ∗ (iprop(owns c.tc arg3 fullShare x0 ∗ owns c.tc arg4 fullShare x1 ∗ owns c.tc arg5 fullShare xi2 ∗ owns c.tc arg6 fullShare (k1_pay2 x0 x1 k1_pay1)) -∗ K ⟨⟩))
      ⊢ wp frame (wpE (defs₀ (F := F)) Variants.none c none) E (cc1__matmul_act_kernel i arg3 harg3 arg4 harg4 arg5 harg5 arg6 harg6) K := by
  simp only [cc1__matmul_act_kernel_eq_skeleton]; unfold cc1__matmul_act_kernel_skel owns
  iintro ⟨⟨%f0, %hf0, H0⟩, ⟨%f1, %hf1, H1⟩, ⟨%f2, %hf2, H2⟩, ⟨%ds0, %fs0, -, HS0⟩, Hk⟩
  subst hf0 hf1 hf2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; swap; · iexact HS0
  ipureintro
  refine (View.read_writes_eq_canon _ _ _ (View.cover_of_tiledL _ S1024x1024.size ?_)).trans ?_
  · sl_kernel_rfl
  sl_unfold_words
  rw [View.canon_cons_unit_zero (S := S1024x1024) hz, View.readCov_unit_zero (S := S1024x1024) _ hz]
  simp only [View.readAt_eq_ld, View.ld_unit_zero (S := S1024x2048) hz]

-- k = 1: the accumulator at `xs0` ends at its update, the result block at the rectified update.
theorem runLast (hc0 : ¬kFirst i) (hc1 : k1_cond2 i = 1#1) (xs0 : Vec F S1024x1024 .f32) (E : Set ℕ) (K : PUnit → sProp 𝕄) :
    iprop(owns c.tc arg3 fullShare x0 ∗ owns c.tc arg4 fullShare x1 ∗ (∃ d, owns c.tc arg5 fullShare d) ∗ owns c.tc arg6 fullShare xs0
        ∗ (iprop(owns c.tc arg3 fullShare x0 ∗ owns c.tc arg4 fullShare x1 ∗ owns c.tc arg5 fullShare (k1_pay3 (k1_pay2 x0 x1 xs0)) ∗ owns c.tc arg6 fullShare (k1_pay2 x0 x1 xs0)) -∗ K ⟨⟩))
      ⊢ wp frame (wpE (defs₀ (F := F)) Variants.none c none) E (cc1__matmul_act_kernel i arg3 harg3 arg4 harg4 arg5 harg5 arg6 harg6) K := by
  simp only [cc1__matmul_act_kernel_eq_skeleton]; unfold cc1__matmul_act_kernel_skel owns
  iintro ⟨⟨%f0, %hf0, H0⟩, ⟨%f1, %hf1, H1⟩, ⟨%d2, %f2, -, H2⟩, ⟨%fs0, %hfs0, HS0⟩, Hk⟩
  subst hf0 hf1 hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero hz, View.readCov_unit_zero (S := S1024x1024) _ hz]
    simp only [View.readAt_eq_ld, View.ld_unit_zero (S := S1024x2048) hz, View.ld_unit_zero (S := S1024x1024) hz]
  iexists _; isplitr; swap; · iexact HS0
  ipureintro
  refine (View.read_writes_eq_canon _ _ _ (View.cover_of_tiledL _ S1024x1024.size ?_)).trans ?_
  · sl_kernel_rfl
  sl_unfold_words
  rw [View.canon_unit_zero hz]
  simp only [View.readAt_eq_ld, View.ld_unit_zero (S := S1024x2048) hz, View.ld_unit_zero (S := S1024x1024) hz]

end Run

abbrev accM : Memref sig .tc .vmem S1024x1024 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

-- The launch's invariant holds the accumulator at some contents.
theorem PhiA_eq (c : Dev nD) :
    (Pipeline.ΦA spec1 c : sProp 𝕄)
      = iprop(iprop(iprop((∃ d, owns c.tc accM fullShare d)) ∗ restBut (F := F) c) ∗ (∃ r, prngReg c r)) := by
  unfold Pipeline.ΦA; rw [scopedRest1_split]; simp only [accM, owns_whole]; try rfl

variable (V : (c : Dev nD) → (b : Ref sig .tc) → Buf (Elt F) ((c : Thread nD τ).loc b)) (c : Dev nD)

def inBlock (w : Fin cfg1.W) (t : Fin cfg1.N) : ((cfg1.win w).xblock (cfg1.grid.coords t)).Idx → Elt F (cfg1.win w).elt :=
  ((cfg1.win w).blk t).view.read (Elt F) (V c (Pipeline.arrRef spec1 w))

-- The partial product of point `t`'s two blocks, over the zero block.
abbrev half (t : Fin cfg1.N) : Vec F S1024x1024 .f32 := k1_pay2 (inBlock V c 0 t) (inBlock V c 1 t) k1_pay1

-- Before an odd point the invariant names the accumulator: the partial product of the point before. At an even point the result block's entry is a placeholder.
def dat : Dat τ (Elt F) Unit ℕ (UR sig nD τ) ℕ cfg1 c where
  A w := V c (Pipeline.arrRef spec1 w)
  after w t := match w with
    | ⟨0, _⟩ => inBlock V c 0 t
    | ⟨1, _⟩ => inBlock V c 1 t
    | ⟨2, _⟩ => k1_pay3 (k1_pay2 (inBlock V c 0 t) (inBlock V c 1 t) (half V c ⟨t.val - 1, (Nat.sub_le _ _).trans_lt t.isLt⟩))
  Φ t := if t.val % 2 = 1 then iprop(iprop(owns c.tc accM fullShare (half V c ⟨t.val - 1, by have := t.isLt; have : cfg1.N = 256 := N_1; omega⟩) ∗ restBut (F := F) c) ∗ (∃ r, prngReg c r))
    else Pipeline.ΦA spec1 c
  q _ := fullShare
  owed _ := 0

theorem A_eq (w : Fin cfg1.W) : (dat V c).A w = V c (Pipeline.arrRef spec1 w) := rfl
theorem q_eq (w : Fin cfg1.W) : (dat V c).q w = fullShare := rfl
theorem owed_eq (t : Fin (cfg1.N + 1)) : (dat V c).owed t = 0 := rfl
theorem recorded_eq (t : Fin (cfg1.N + 1)) : (dat V c).recorded t = Set.univ := rfl

theorem before_0 (t : Fin cfg1.N) (d) : (dat V c).before 0 t d = inBlock V c 0 t := (dat V c).before_fetched 0 t (fetch1_0 t) d
theorem before_1 (t : Fin cfg1.N) (d) : (dat V c).before 1 t d = inBlock V c 1 t := (dat V c).before_fetched 1 t (fetch1_1 t) d

theorem body_obligation : BodyObligation (dat (F := F) V c) (defs₀ (F := F)) Variants.none () Set.univ := fun t => by
  obtain ⟨i0, ie, io⟩ := pts t
  rw [bigSep_W1, bigSep_W1]
  change iprop(_ ∗ _ ∗ (∃ d, owns _ _ _ ((dat V c).before 0 t d)) ∗ (∃ d, owns _ _ _ ((dat V c).before 1 t d)) ∗ ∃ d, owns _ _ _ ((dat V c).before 2 t d))
    ⊢ wp _ _ _ (bodyAt1 t) fun _ => iprop(_ ∗ (dat V c).owesAt () t.castSucc ∗ (dat V c).leavesExact 0 t ∗ (dat V c).leavesExact 1 t ∗ (dat V c).leavesExact 2 t)
  rcases Nat.mod_two_eq_zero_or_one t.val with h | h
  · obtain ⟨k0, k1, i2, f2⟩ := ie h
    rewrite [Dat.leavesExact_idle (dat V c) 2 t i2 f2, show (dat V c).Φ t.castSucc = _ from if_neg (by omega : ¬t.val % 2 = 1), PhiA_eq,
      show (dat V c).Φ t.succ = iprop(iprop(owns c.tc accM fullShare (half V c t) ∗ restBut (F := F) c) ∗ (∃ r, prngReg c r)) from
        if_pos (by show (t.val + 1) % 2 = 1; omega)]
    unfold bodyAt1 Dat.leavesExact
    rewrite [i0]
    simp only [before_0, before_1]
    iintro ⟨⟨⟨HS, Hr⟩, Hg⟩, Ho, ⟨%d0, H0⟩, ⟨%d1, H1⟩, ⟨%d2, H2⟩⟩
    iapply (runFirst c _ _ _ _ _ (inBlock V c 0 t) (inBlock V c 1 t) k0 k1 ((dat V c).before 2 t d2) _ _)
    iframe
    iintro ⟨H0, H1, H2, HS⟩
    iframe
    isplitl [H0]; · iexact H0
    isplitl [H1]; · iexact H1
    iexists _; iexact H2
  · obtain ⟨k0, k1, i2⟩ := io h
    rewrite [show (dat V c).Φ t.succ = _ from if_neg (by show ¬(t.val + 1) % 2 = 1; omega), PhiA_eq,
      show (dat V c).Φ t.castSucc = _ from if_pos (show t.val % 2 = 1 from h)]
    unfold bodyAt1 Dat.leavesExact
    rewrite [i0, i2]
    simp only [before_0, before_1]
    iintro ⟨⟨⟨HS, Hr⟩, Hg⟩, Ho, ⟨%d0, H0⟩, ⟨%d1, H1⟩, ⟨%d2, H2⟩⟩
    iapply (runLast c _ _ _ _ _ (inBlock V c 0 t) (inBlock V c 1 t) k0 k1 _ _ _)
    iframe
    isplitl [H2]; · iexists _; iexact H2
    iintro ⟨H0, H1, H2, HS⟩
    isplitl [HS]; · iexists _; iexact HS
    isplitl [H0]; · iexact H0
    isplitl [H1]; · iexact H1
    iexact H2

theorem hin : (Pipeline.ΦA spec1 c : sProp 𝕄) ⊢ (dat V c).Φ 0 := Idealize.SL.BI.Entails.refl _

theorem hout : (dat V c).Φ (Fin.last cfg1.N) ⊢ (Pipeline.ΦA spec1 c : sProp 𝕄) := Idealize.SL.BI.Entails.refl _

end Cert.Kernel.R1

end
-- ==== Proof.K.R2.lean ====
import proofs.«105382_j64407329571549_1_alg».proof.Proof.Gen.Kernel.Launch
import proofs.«105382_j64407329571549_1_alg».proof.Proof.Gen.Kernel.Skeleton
import proofs.«105382_j64407329571549_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev resetCond (i : grid2.Coords) : Prop := (Scalar.cmpi .ne (Scalar.extui (Scalar.cmpi .eq (BitVec.ofNat 32 (i 2).val) 0#32)) 0#32) = 1#1
abbrev emitCond (i : grid2.Coords) : Prop := k2_cond2 i = 1#1

-- The innermost coordinate is the point's parity: an even point starts a sum and leaves the result's block alone,
theorem even_pt : ∀ t : Fin cfg2.N, t.val % 2 = 0 → (resetCond (grid2.coords t) ∧ ¬emitCond (grid2.coords t)) ∧ cfg2.idle 2 (grid2.coords t) = true ∧ (cfg2.win 2).flush t = false :=
  (by decide +kernel : ∀ t : Fin grid2.N, _)
-- an odd point ends it.
theorem odd_pt : ∀ t : Fin cfg2.N, ¬t.val % 2 = 0 → (¬resetCond (grid2.coords t) ∧ emitCond (grid2.coords t)) ∧ cfg2.idle 2 (grid2.coords t) = false :=
  (by decide +kernel : ∀ t : Fin grid2.N, _)

abbrev accM : Memref sig .tc .vmem S1024x1024 .f32 := Memref.whole cc2_scratch0

abbrev others (c : Dev nD) : sProp 𝕄 :=
  Pipeline.scopedRestBut (Ix := Unit) (Name := ℕ) (U := UR sig nD τ) (Lvl := ℕ) (Val := Elt F) spec2 c [cc2_scratch0]

theorem PhiA_eq (c : Dev nD) :
    (Pipeline.ΦA spec2 c : sProp 𝕄)
      = iprop(iprop(iprop((∃ d, owns c accM fullShare d)) ∗ others c) ∗ (∃ r, prngReg c r)) := by
  unfold Pipeline.ΦA; rw [scopedRest2_split]; simp only [accM, owns_whole]; try rfl

theorem hz : (![0, 0] : Fin 2 → Nat) = fun _ => 0 := funext fun a => by fin_cases a <;> rfl

section Run

variable (c : Dev nD) {i : grid2.Coords} {arg3 arg4 : Memref sig .tc .vmem S1024x2048 .bf16} {arg5 arg6 : Memref sig .tc .vmem S1024x1024 .f32}
  {harg3 : arg3.IsWhole} {harg4 : arg4.IsWhole} {harg5 : arg5.IsWhole} {harg6 : arg6.IsWhole} (x0 x1 : Vec F S1024x2048 .bf16)

-- Where a sum starts the accumulator is cleared and the product of the two blocks added: it ends at one step from the zero block.
theorem runReset (hc : resetCond i ∧ ¬emitCond i) {E : Set ℕ} {K : PUnit → sProp 𝕄} :
    iprop(owns c arg3 fullShare x0 ∗ owns c arg4 fullShare x1 ∗ (∃ d, owns c arg6 fullShare d)
        ∗ (iprop(owns c arg3 fullShare x0 ∗ owns c arg4 fullShare x1 ∗ owns c arg6 fullShare (k2_pay2 x0 x1 (k2_pay1 (F := F)))) -∗ K ⟨⟩))
      ⊢ wp frame (wpE (defs₀ (F := F)) Variants.none c none) E (cc2__matmul_act_kernel i arg3 harg3 arg4 harg4 arg5 harg5 arg6 harg6) K := by
  simp only [cc2__matmul_act_kernel_eq_skeleton]; unfold cc2__matmul_act_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  iexists _; isplitr; swap; · iexact HS
  ipureintro
  refine (View.read_writes_eq_canon _ _ _ (View.cover_of_tiledL _ S1024x1024.size ?_)).trans ?_
  · sl_kernel_rfl
  sl_unfold_words
  rw [View.canon_cons_unit_zero (S := S1024x1024) hz, View.readCov_unit_zero (S := S1024x1024) _ hz]
  simp only [View.readAt_eq_ld, hf0, hf1, View.ld_unit_zero (S := S1024x2048) hz]

-- Where a sum ends the product is added to the accumulator and the sum stored in the result's block: one step from what the accumulator held.
theorem runEmit (xs : Vec F S1024x1024 .f32) (hc : ¬resetCond i ∧ emitCond i) {E : Set ℕ} {K : PUnit → sProp 𝕄} :
    iprop(owns c arg3 fullShare x0 ∗ owns c arg4 fullShare x1 ∗ (∃ d, owns c arg5 fullShare d) ∗ owns c arg6 fullShare xs
        ∗ (iprop(owns c arg3 fullShare x0 ∗ owns c arg4 fullShare x1 ∗ owns c arg5 fullShare (k2_pay2 x0 x1 xs) ∗ (∃ d, owns c arg6 fullShare d)) -∗ K ⟨⟩))
      ⊢ wp frame (wpE (defs₀ (F := F)) Variants.none c none) E (cc2__matmul_act_kernel i arg3 harg3 arg4 harg4 arg5 harg5 arg6 harg6) K := by
  simp only [cc2__matmul_act_kernel_eq_skeleton]; unfold cc2__matmul_act_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero (S := S1024x1024) hz, View.readCov_unit_zero (S := S1024x1024) _ hz]
    simp only [View.readAt_eq_ld, hf0, hf1, hfs, View.ld_unit_zero (S := S1024x2048) hz, View.ld_unit_zero (S := S1024x1024) hz]
  iexists _, _; isplitr; swap; · iexact HS
  ipureintro; rfl

end Run

variable (V : (c : Dev nD) → (b : Ref sig .tc) → Buf (Elt F) ((c : Thread nD τ).loc b)) (c : Dev nD)

def blockAt (w : Fin cfg2.W) (t : Fin cfg2.N) : ((cfg2.win w).xblock (cfg2.grid.coords t)).Idx → Elt F (cfg2.win w).elt :=
  ((cfg2.win w).blk t).view.read (Elt F) (V c (Pipeline.arrRef spec2 w))

-- The accumulator after an even point: one step from the zero block over the two blocks there.
def acc (t : Fin cfg2.N) : Vec F S1024x1024 .f32 := k2_pay2 (blockAt V c 0 t) (blockAt V c 1 t) (k2_pay1 (F := F))

abbrev prev (t : Fin cfg2.N) : Fin cfg2.N := ⟨t.val - 1, Nat.lt_of_le_of_lt (Nat.sub_le _ _) t.isLt⟩

-- Before an even position the accumulator holds anything; before an odd one what the even point before it left.
def inv (n : ℕ) (hn : n ≤ cfg2.N) : sProp 𝕄 :=
  if h : n % 2 = 0 then Pipeline.ΦA spec2 c
  else iprop(iprop(owns c accM fullShare (acc V c ⟨n - 1, by omega⟩) ∗ others c) ∗ (∃ r, prngReg c r))

theorem inv_even (n : ℕ) (hn : n ≤ cfg2.N) (h : n % 2 = 0) : inv V c n hn = Pipeline.ΦA spec2 c := dif_pos h

-- The result's block after a point: one step over the point's blocks from what the point before left (read only after the odd points).
def dat : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => k2_pay2 (blockAt V c 0 t) (blockAt V c 1 t) (acc V c (prev t))
  Φ t := inv V c t.val (Nat.le_of_lt_succ t.isLt)
  q _ := fullShare
  owed _ := 0

theorem A_eq (w : Fin cfg2.W) : (dat V c).A w = V c (Pipeline.arrRef spec2 w) := rfl

theorem q_eq (w : Fin cfg2.W) : (dat V c).q w = fullShare := rfl

theorem owed_eq (t : Fin (cfg2.N + 1)) : (dat V c).owed t = 0 := rfl

theorem recorded_eq (t : Fin (cfg2.N + 1)) : (dat V c).recorded t = Set.univ := rfl

-- What the body finds of a factor at a point is the array's block there.
theorem before_lhs (t : Fin cfg2.N) (d) : (dat V c).before 0 t d = blockAt V c 0 t :=
  ((dat V c).before_in_eq_fetched 0 rfl (fun _ => rfl) (fun _ _ _ => rfl) (fun _ => rfl) t d).trans rfl
theorem before_rhs (t : Fin cfg2.N) (d) : (dat V c).before 1 t d = blockAt V c 1 t :=
  ((dat V c).before_in_eq_fetched 1 rfl (fun _ => rfl) (fun _ _ _ => rfl) (fun _ => rfl) t d).trans rfl

theorem body_obligation : BodyObligation (dat (F := F) V c) (defs₀ (F := F)) Variants.none () Set.univ := fun t => by
  rw [bigSep_W2, bigSep_W2]
  show _ ⊢ wp _ _ _ (bodyAt2 t) (fun _ => iprop((dat V c).Φ t.succ ∗ (dat V c).owesAt () t.castSucc
    ∗ owns c _ fullShare (blockAt V c 0 t) ∗ owns c _ fullShare (blockAt V c 1 t) ∗ (dat V c).leavesExact 2 t))
  simp only [before_lhs, before_rhs]
  rw [show (dat V c).Φ t.succ = inv V c (t.val + 1) t.isLt from rfl,
    show (dat V c).Φ t.castSucc = inv V c t.val (Nat.le_of_lt t.isLt) from rfl]
  unfold inv
  by_cases h0 : t.val % 2 = 0
  · rw [dif_pos h0, dif_neg (show ¬(t.val + 1) % 2 = 0 by omega),
      (dat V c).leavesExact_idle 2 t (even_pt t h0).2.1 (even_pt t h0).2.2, PhiA_eq]
    iintro ⟨⟨⟨HS, HR⟩, Hg⟩, Ho, ⟨%d0, H0⟩, ⟨%d1, H1⟩, H2⟩
    iapply (runReset c (blockAt V c 0 t) (blockAt V c 1 t) (even_pt t h0).1)
    iframe H0 H1 HS
    iintro ⟨H0, H1, HS⟩
    iframe
    iexact HS
  · rw [dif_neg h0, dif_pos (show (t.val + 1) % 2 = 0 by omega), PhiA_eq,
      show (dat V c).leavesExact 2 t = owns c (win2_2.stage (cfg2.slots t 2)) fullShare (k2_pay2 (blockAt V c 0 t) (blockAt V c 1 t) (acc V c (prev t))) from by
        unfold Dat.leavesExact; rw [(odd_pt t h0).2]; dsimp only [dat]]
    iintro ⟨⟨⟨HS, HR⟩, Hg⟩, Ho, ⟨%d0, H0⟩, ⟨%d1, H1⟩, ⟨%d2, H2⟩⟩
    iapply (runEmit c (blockAt V c 0 t) (blockAt V c 1 t) (acc V c (prev t)) (odd_pt t h0).1)
    iframe H0 H1 HS
    isplitl [H2]; · iexists _; iexact H2
    iintro ⟨H0, H1, H2, HS⟩
    iframe

theorem hin : (Pipeline.ΦA spec2 c : sProp 𝕄) ⊢ (dat V c).Φ 0 := by
  rw [show (dat V c).Φ 0 = _ from inv_even V c 0 (Nat.zero_le _) (Nat.zero_mod 2)]

theorem hout : (dat V c).Φ (Fin.last cfg2.N) ⊢ (Pipeline.ΦA spec2 c : sProp 𝕄) := by
  rw [show (dat V c).Φ (Fin.last cfg2.N) = _ from inv_even V c cfg2.N (Nat.le_refl _) (by rw [show cfg2.N = 64 from N_2])]

end Cert.Kernel.R2

end
-- ==== Proof.K.R3.lean ====
import proofs.«105382_j64407329571549_1_alg».proof.Proof.Gen.Kernel.Launch
import proofs.«105382_j64407329571549_1_alg».proof.Proof.Gen.Kernel.Skeleton
import proofs.«105382_j64407329571549_1_alg».proof.Proof.Gen.Kernel.Points
import Idealize.ShloMosaic.Lib.Pipeline.FrameBody
import Idealize.ShloMosaic.Lib.Tactic

noncomputable section

namespace Cert.Kernel.R3

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) := ((cfg3.win w).blk t).view.read (Elt F) (V c (Pipeline.arrRef spec3 w))

abbrev whole : Rect S1024x1024 := Rect.unit (s := S1024x1024) ![0, 0] S1024x1024.size inb_S1024x1024_S1024x1024_0_0

-- The array that is, at every index, a payload of the two blocks read over the full rectangle.
def out (pay : Vec F S1024x1024 .bf16 → Vec F S1024x1024 .bf16 → FVec F S1024x1024 .f32) (a b : Vec F S1024x1024 .bf16) : Vec F S1024x1024 .f32 :=
  View.canon [⟨whole, pay (View.ld a whole) (View.ld b whole)⟩]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out k3_pay2 (iblk V c 0 t) (iblk V c 1 t)
    | ⟨4, _⟩ => out k3_pay3 (iblk V c 0 t) (iblk V c 2 t)
  Φ _ := Pipeline.ΦA spec3 c
  q _ := fullShare
  owed _ := 0

theorem A_eq (c : Dev nD) (w : Fin cfg3.W) : (dat V c).A w = V c (Pipeline.arrRef spec3 w) := rfl

theorem q_eq (c : Dev nD) (w : Fin cfg3.W) : (dat V c).q w = fullShare := rfl

theorem owed_eq (c : Dev nD) (t : Fin (cfg3.N + 1)) : (dat V c).owed t = 0 := rfl

theorem recorded_eq (c : Dev nD) (t : Fin (cfg3.N + 1)) : (dat V c).recorded t = Set.univ := rfl

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

-- Rewrites what the body is given for each input, at any point, to that input's block there.
theorem before_in (c : Dev nD) (t : Fin cfg3.N) : (∀ d, (dat V c).before 0 t d = iblk V c 0 t) ∧ (∀ d, (dat V c).before 1 t d = iblk V c 1 t)
    ∧ (∀ d, (dat V c).before 2 t d = iblk V c 2 t) := by
  refine ⟨?_, ?_, ?_⟩ <;> exact (dat V c).before_in_eq_fetched _ rfl (fun _ => rfl) (fun _ _ _ => rfl) (fun _ => rfl) t

abbrev own (c : Dev nD) {e : EltTy} (m : Memref sig .tc .vmem S1024x1024 e) (X : Vec F S1024x1024 e) : sProp 𝕄 :=
  owns (c : Thread nD τ) m fullShare X

-- The full rectangle covers every index, so overwriting on it forgets the earlier contents.
theorem own_out (c : Dev nD) (m : Memref sig .tc .vmem S1024x1024 .f32) (f) (p : Vec F S1024x1024 .f32) :
    (m.view.loc (c : Thread nD τ) ↦[m.view.set]{fullShare} m.view.writes (Elt F) f [⟨whole, p⟩] : sProp 𝕄) ⊢ own c m (View.canon [⟨whole, p⟩]) := by
  unfold own owns; iintro H; iexists m.view.writes (Elt F) f [⟨whole, p⟩]; isplitr
  · ipureintro; exact View.read_writes_eq_canon _ f _ (View.cover_of_tiled _ S1024x1024.size (by rfl))
  · iexact H

-- The body preserves any P and Q and its three inputs, and makes each output a payload of the inputs.
theorem body_spec (c : Dev nD) (i : grid3.Coords) {m1 m2 m3 : Memref sig .tc .vmem S1024x1024 .bf16} {m4 m5 : Memref sig .tc .vmem S1024x1024 .f32}
    (h1 : m1.IsWhole) (h2 : m2.IsWhole) (h3 : m3.IsWhole) (h4 : m4.IsWhole) (h5 : m5.IsWhole) (a b1 b2 : Vec F S1024x1024 .bf16)
    {D1 D2 D3 D4 D5 : Type} (x4 : D4 → Vec F S1024x1024 .f32) (x5 : D5 → Vec F S1024x1024 .f32) (P Q : sProp 𝕄) :
    iprop(P ∗ Q ∗ (∃ _ : D1, own c m1 a) ∗ (∃ _ : D2, own c m2 b1) ∗ (∃ _ : D3, own c m3 b2) ∗ (∃ d, own c m4 (x4 d)) ∗ (∃ d, own c m5 (x5 d)))
      ⊢ wp frame (wpE (defs₀ (F := F)) Variants.none c none) Set.univ (cc3__dual_linear_kernel i m1 h1 m2 h2 m3 h3 m4 h4 m5 h5)
        fun _ => iprop(P ∗ Q ∗ own c m1 a ∗ own c m2 b1 ∗ own c m3 b2 ∗ own c m4 (out k3_pay2 a b1) ∗ own c m5 (out k3_pay3 a b2)) := by
  simp only [cc3__dual_linear_kernel_eq_skeleton]; unfold cc3__dual_linear_kernel_skel
  conv_lhs => unfold own owns
  iintro ⟨HP, HQ, ⟨%_, %f0, %e0, H0⟩, ⟨%_, %f1, %e1, H1⟩, ⟨%_, %f2, %e2, H2⟩, ⟨%_, %f3, -, H3⟩, ⟨%_, %f4, -, H4⟩⟩
  subst e0 e1 e2
  sl_exec
  sl_step
  iframe HP HQ
  isplitl [H0]; · iapply owns_intro; iexact H0
  isplitl [H1]; · iapply owns_intro; iexact H1
  isplitl [H2]; · iapply owns_intro; iexact H2
  isplitl [H3]; · iapply own_out; iexact H3
  iapply own_out; iexact H4

theorem body_obligation (c : Dev nD) : BodyObligation (dat (F := F) V c) (defs₀ (F := F)) Variants.none () Set.univ := fun t => by
  rw [bigSep_W3, bigSep_W3]
  simp only [before_in V c t]
  dsimp only [dat]
  exact body_spec c (grid3.coords t) (stage_whole3 0 _) (stage_whole3 1 _) (stage_whole3 2 _) (stage_whole3 3 _) (stage_whole3 4 _) _ _ _ _ _ _ _

end Cert.Kernel.R3

end
-- ==== Proof.K.R4.lean ====
import proofs.«105382_j64407329571549_1_alg».proof.Proof.Gen.Kernel.Launch
import proofs.«105382_j64407329571549_1_alg».proof.Proof.Gen.Kernel.Skeleton
import proofs.«105382_j64407329571549_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOffsets : (![0, 0] : Fin 2 → Nat) = fun _ => 0 := funext fun a => by fin_cases a <;> rfl

def dat (c : Dev nD) : Dat τ (Elt F) Unit ℕ (UR sig nD τ) ℕ cfg4 c where
  A w := V c (Pipeline.arrRef spec4 w)
  after w t := match w with
    | ⟨5, _⟩ => k4_pay1 (tile V c 0 t) (tile V c 1 t) (tile V c 2 t) (tile V c 3 t) (tile V c 4 t)
    | ⟨0, _⟩ => tile V c 0 t
    | ⟨1, _⟩ => tile V c 1 t
    | ⟨2, _⟩ => tile V c 2 t
    | ⟨3, _⟩ => tile V c 3 t
    | ⟨4, _⟩ => tile V c 4 t
  Φ _ := Pipeline.ΦA spec4 c
  q _ := fullShare
  owed _ := 0

theorem A_eq (c : Dev nD) (w : Fin cfg4.W) : (dat V c).A w = V c (Pipeline.arrRef spec4 w) := rfl
theorem q_eq (c : Dev nD) (w : Fin cfg4.W) : (dat V c).q w = fullShare := rfl
theorem owed_eq (c : Dev nD) (t : Fin (cfg4.N + 1)) : (dat V c).owed t = 0 := rfl
theorem recorded_eq (c : Dev nD) (t : Fin (cfg4.N + 1)) : (dat V c).recorded t = Set.univ := rfl
theorem hin (c : Dev nD) : (Pipeline.ΦA spec4 c : sProp 𝕄) ⊢ (dat V c).Φ 0 := .rfl
theorem hout (c : Dev nD) : (dat V c).Φ (Fin.last cfg4.N) ⊢ (Pipeline.ΦA spec4 c : sProp 𝕄) := .rfl

-- at an input window `before` and `after` are both the window's block of the entered array
theorem finds (c : Dev nD) (t : Fin cfg4.N) : ∀ w : Fin cfg4.W, w ≠ 5 → ∀ d, (dat V c).before w t d = (dat V c).after w t
  | ⟨5, _⟩, h, _ => absurd rfl h
  | ⟨0, _⟩, _, d | ⟨1, _⟩, _, d | ⟨2, _⟩, _, d | ⟨3, _⟩, _, d | ⟨4, _⟩, _, d =>
    (dat V c).before_in_eq_fetched _ rfl (fun _ => rfl) (fun _ _ _ => rfl) (fun _ => rfl) t d

-- five whole buffers are read and the sixth is overwritten with the payload of what was read
theorem body_runs (c : Dev nD) {i : grid4.Coords}
    {a0 a1 a2 a5 : Memref sig .tc .vmem S512x1024 .f32} {a3 a4 : Memref sig .tc .vmem S1x1024 .f32}
    {h0 : a0.IsWhole} {h1 : a1.IsWhole} {h2 : a2.IsWhole} {h3 : a3.IsWhole} {h4 : a4.IsWhole} {h5 : a5.IsWhole}
    (z0 z1 z2 d : Vec F S512x1024 .f32) (g b : Vec F S1x1024 .f32) {K : PUnit → sProp 𝕄} :
    iprop(owns c a5 fullShare d ∗ owns c a0 fullShare z0 ∗ owns c a1 fullShare z1 ∗ owns c a2 fullShare z2 ∗ owns c a3 fullShare g
        ∗ owns c a4 fullShare b
        ∗ (iprop(owns c a5 fullShare (k4_pay1 z0 z1 z2 g b) ∗ owns c a0 fullShare z0 ∗ owns c a1 fullShare z1 ∗ owns c a2 fullShare z2
            ∗ owns c a3 fullShare g ∗ owns c a4 fullShare b) -∗ K ⟨⟩))
      ⊢ wp frame (wpE (defs₀ (F := F)) Variants.none c none) Set.univ (cc4__add_ln_kernel i a0 h0 a1 h1 a2 h2 a3 h3 a4 h4 a5 h5) K := by
  simp only [cc4__add_ln_kernel_eq_skeleton]; unfold cc4__add_ln_kernel_skel owns
  iintro ⟨⟨%f5, -, H5⟩, ⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H5]
  · iexists _; isplitr
    swap; · iexact H5
    ipureintro
    refine (View.read_writes_eq_canon _ _ _ (View.cover_of_tiled _ S512x1024.size (by rfl))).trans ?_
    rw [View.canon_unit_zero (S := S512x1024) zeroOffsets]
    simp only [View.readAt_eq_ld, View.ld_unit_zero (S := S512x1024) zeroOffsets, View.ld_unit_zero (S := S1x1024) zeroOffsets]
  sl_close

theorem body_obligation (c : Dev nD) : BodyObligation (dat (F := F) V c) (defs₀ (F := F)) Variants.none () Set.univ := fun t => by
  rw [bigSep_W4, bigSep_W4]
  simp (disch := decide) only [finds]
  show _ ⊢ wp _ _ _ (bodyAt4 t) _
  rw [show (dat V c).owesAt () t.succ = (dat V c).owesAt () t.castSucc from rfl]
  dsimp only [dat]
  iintro ⟨HΦ, Ho, ⟨%_, H0⟩, ⟨%_, H1⟩, ⟨%_, H2⟩, ⟨%_, H3⟩, ⟨%_, H4⟩, ⟨%d, H5⟩⟩
  iapply (body_runs c (tile V c 0 t) (tile V c 1 t) (tile V c 2 t) _ (tile V c 3 t) (tile V c 4 t))
  iframe H0 H1 H2 H3 H4 H5
  iintro ⟨H5, H0, H1, H2, H3, H4⟩
  iframe

end Cert.Kernel.R4

end
-- ==== Proof.LibClassARegion.lean ====
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

def rides (c : Dev nD) : sProp 𝕄₁ :=
  iprop((∃ r, prngReg c r) ∗ ∃ W, owes (c.tc : Thread nD τ) (0 : CellTallies nD τ sig Unit) W)

/-- The state of a core between two items of a program, at the valuation `W`. -/
def between (c : Dev nD) (W : Valuation τ sig Val) : sProp 𝕄₁ :=
  iprop(StableHlo.held (c.tc : Thread nD τ) (ucRefs τ sig) W ∗ rides (U' := U') c)

set_option backward.isDefEq.respectTransparency.types false in
/-- A region as a segment of a program of several regions: entered at `W` and left at `W'`, which differs from `W` only at the region's result arrays. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hout : ∀ c w, ((pin pcs a p).win w).isOut = true → (pdats p c).arrAt w (pin pcs a p).N = W' c (Proc.devRef .tc (arrRef (pin pcs a p).spec w)))
    (hkeep : ∀ c (b : Ref sig .tc), (∀ w, ((pin pcs a p).win w).isOut = true → b ≠ arrRef (pin pcs a p).spec w) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N)
      (fun w => by
        cases h : ((pin pcs a p).win w).isOut
        · exact (((pdats p c).arrAt_in w h _).trans (hA c w)).trans
            (hkeep c _ fun w' hw' e => by rw [kit.win.arr_inj e, hw'] at h; cases h).symm
        · exact hout c w h)
      (fun b hb => hkeep c b fun w _ e => hb (e ▸ Finset.mem_image.mpr ⟨w, Finset.mem_univ _, rfl⟩))
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.K.Frame.lean ====
import proofs.«105382_j64407329571549_1_alg».proof.Proof.Gen.Kernel.Regions
import proofs.«105382_j64407329571549_1_alg».proof.Proof.K.R0
import proofs.«105382_j64407329571549_1_alg».proof.Proof.K.R1
import proofs.«105382_j64407329571549_1_alg».proof.Proof.K.R2
import proofs.«105382_j64407329571549_1_alg».proof.Proof.K.R3
import proofs.«105382_j64407329571549_1_alg».proof.Proof.K.R4
import proofs.«105382_j64407329571549_1_alg».proof.Proof.LibClassARegion

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) (c : Dev nD) (b : Ref sig .tc) : Buf (Elt F) ((c : Thread nD τ).loc b) := W c b

-- The buffers' contents between the items of the program: a region changes only its result arrays.
def U1 (c : Dev nD) : Valuation τ sig (Elt F) := V1 m c
def U2 (c : Dev nD) : Valuation τ sig (Elt F) := Function.update (U1 m c) main_v22 ((R0.dat (rd (U1 m)) c).arrAt 2 cfg0.N)
def U3 (c : Dev nD) : Valuation τ sig (Elt F) := Function.update (U2 m c) main_v23 ((R1.dat (rd (U2 m)) c).arrAt 2 cfg1.N)
def U4 (c : Dev nD) : Valuation τ sig (Elt F) := Function.update (U3 m c) main_v24 ((R2.dat (rd (U3 m)) c).arrAt 2 cfg2.N)
def U5 (c : Dev nD) : Valuation τ sig (Elt F) :=
  Function.update (Function.update (U4 m c) main_v25_0 ((R3.dat (rd (U4 m)) c).arrAt 3 cfg3.N)) main_v25_1 ((R3.dat (rd (U4 m)) c).arrAt 4 cfg3.N)
def U6 (c : Dev nD) : Valuation τ sig (Elt F) := StableHlo.after hostOps4 (U5 m c)
def U7 (c : Dev nD) : Valuation τ sig (Elt F) := Function.update (U6 m c) main_v28 ((R4.dat (rd (U6 m)) c).arrAt 5 cfg4.N)

theorem U2_self (c : Dev nD) : U2 m c main_v22 = (R0.dat (rd (U1 m)) c).arrAt 2 cfg0.N := Function.update_self _ _ _
theorem U2_of (c : Dev nD) (r : Ref sig .tc) (h : r ≠ main_v22) : U2 m c r = U1 m c r :=
  Function.update_of_ne (StableHlo.devRef_ne_of_ne h) _ _
theorem U3_self (c : Dev nD) : U3 m c main_v23 = (R1.dat (rd (U2 m)) c).arrAt 2 cfg1.N := Function.update_self _ _ _
theorem U3_of (c : Dev nD) (r : Ref sig .tc) (h : r ≠ main_v23) : U3 m c r = U2 m c r :=
  Function.update_of_ne (StableHlo.devRef_ne_of_ne h) _ _
theorem U4_self (c : Dev nD) : U4 m c main_v24 = (R2.dat (rd (U3 m)) c).arrAt 2 cfg2.N := Function.update_self _ _ _
theorem U4_of (c : Dev nD) (r : Ref sig .tc) (h : r ≠ main_v24) : U4 m c r = U3 m c r :=
  Function.update_of_ne (StableHlo.devRef_ne_of_ne h) _ _
theorem U5_self1 (c : Dev nD) : U5 m c main_v25_1 = (R3.dat (rd (U4 m)) c).arrAt 4 cfg3.N := Function.update_self _ _ _
theorem U5_self0 (c : Dev nD) : U5 m c main_v25_0 = (R3.dat (rd (U4 m)) c).arrAt 3 cfg3.N :=
  (Function.update_of_ne (StableHlo.devRef_ne_of_ne (by decide)) _ _).trans (Function.update_self _ _ _)
theorem U5_of (c : Dev nD) (r : Ref sig .tc) (h0 : r ≠ main_v25_0) (h1 : r ≠ main_v25_1) : U5 m c r = U4 m c r :=
  (Function.update_of_ne (StableHlo.devRef_ne_of_ne h1) _ _).trans (Function.update_of_ne (StableHlo.devRef_ne_of_ne h0) _ _)
theorem U7_self (c : Dev nD) : U7 m c main_v28 = (R4.dat (rd (U6 m)) c).arrAt 5 cfg4.N := Function.update_self _ _ _
theorem U7_of (c : Dev nD) (r : Ref sig .tc) (h : r ≠ main_v28) : U7 m c r = U6 m c r :=
  Function.update_of_ne (StableHlo.devRef_ne_of_ne h) _ _

def outs : Outs (F := F) := fun J r c =>
  match J with
  | 2 => U2 m c r
  | 3 => U3 m c r
  | 4 => U4 m c r
  | 5 => U5 m c r
  | 7 => U7 m c r
  | _ => U1 m c r

-- The generated valuations, read at these results, are the ones above.
theorem V2_eq (c : Dev nD) : V2 m (outs m) c = U2 m c := by
  show Function.update (V1 m c) main_v22 (U2 m c main_v22) = U2 m c
  rw [U2_self]; rfl
theorem V3_eq (c : Dev nD) : V3 m (outs m) c = U3 m c := by
  show Function.update (V2 m (outs m) c) main_v23 (U3 m c main_v23) = U3 m c
  rw [V2_eq, U3_self]; rfl
theorem V4_eq (c : Dev nD) : V4 m (outs m) c = U4 m c := by
  show Function.update (V3 m (outs m) c) main_v24 (U4 m c main_v24) = U4 m c
  rw [V3_eq, U4_self]; rfl
theorem V5_eq (c : Dev nD) : V5 m (outs m) c = U5 m c := by
  show Function.update (Function.update (V4 m (outs m) c) main_v25_0 (U5 m c main_v25_0)) main_v25_1 (U5 m c main_v25_1) = U5 m c
  rw [V4_eq, U5_self0, U5_self1]; rfl
theorem V6_eq (c : Dev nD) : V6 m (outs m) c = U6 m c := by
  show StableHlo.after hostOps4 (V5 m (outs m) c) = U6 m c
  rw [V5_eq]; rfl
theorem V7_eq (c : Dev nD) : V7 m (outs m) c = U7 m c := by
  show Function.update (V6 m (outs m) c) main_v28 (U7 m c main_v28) = U7 m c
  rw [V6_eq, U7_self]; rfl

def pdats : (p : Fin 5) → (c : Dev nD) → Dat τ (Elt F) Unit ℕ (UR sig nD τ) ℕ (cfgs p) c
  | ⟨0, _⟩ => R0.dat (rd (U1 m))
  | ⟨1, _⟩ => R1.dat (rd (U2 m))
  | ⟨2, _⟩ => R2.dat (rd (U3 m))
  | ⟨3, _⟩ => R3.dat (rd (U4 m))
  | ⟨4, _⟩ => R4.dat (rd (U6 m))

abbrev L₀ : GSem nD τ sig → Finset Unit := fun _ => ∅
abbrev lv₀ : GSem nD τ sig → Unit → ℕ := fun _ _ => 0

abbrev ride (c : Dev nD) : sProp 𝕄 := Pipeline.ClassA.rides (U' := UR sig nD τ) c

theorem hpref (p : Fin 5) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

set_option backward.isDefEq.respectTransparency.types false in
def reg0 : RegionSeg (pcfgs (F := F)) adm (pdats m) () defs₀ Variants.none L₀ lv₀ 0 :=
  Pipeline.ClassA.region (U' := UR sig nD τ) (pcfgs (F := F)) adm (pdats m) defs₀ Variants.none L₀ lv₀ 0 launch0.toP
    (R0.body_obligation (rd (U1 m))) (R0.q_eq (rd (U1 m))) (R0.owed_eq (rd (U1 m))) (R0.recorded_eq (rd (U1 m)))
    (R0.hin (rd (U1 m))) (R0.hout (rd (U1 m))) (hpref 0) (U1 m) (U2 m) (R0.A_eq (rd (U1 m)))
    (fun c w hw => by
      obtain rfl := (by decide : ∀ w : Fin cfg0.W, (cfg0.win w).isOut = true → w = 2) w hw
      exact (U2_self m c).symm)
    (fun c b hb => U2_of m c b (hb 2 rfl))

set_option backward.isDefEq.respectTransparency.types false in
def reg1 : RegionSeg (pcfgs (F := F)) adm (pdats m) () defs₀ Variants.none L₀ lv₀ 1 :=
  Pipeline.ClassA.region (U' := UR sig nD τ) (pcfgs (F := F)) adm (pdats m) defs₀ Variants.none L₀ lv₀ 1 launch1.toP
    (R1.body_obligation (rd (U2 m))) (R1.q_eq (rd (U2 m))) (R1.owed_eq (rd (U2 m))) (R1.recorded_eq (rd (U2 m)))
    (R1.hin (rd (U2 m))) (R1.hout (rd (U2 m))) (hpref 1) (U2 m) (U3 m) (R1.A_eq (rd (U2 m)))
    (fun c w hw => by
      obtain rfl := (by decide : ∀ w : Fin cfg1.W, (cfg1.win w).isOut = true → w = 2) w hw
      exact (U3_self m c).symm)
    (fun c b hb => U3_of m c b (hb 2 rfl))

set_option backward.isDefEq.respectTransparency.types false in
def reg2 : RegionSeg (pcfgs (F := F)) adm (pdats m) () defs₀ Variants.none L₀ lv₀ 2 :=
  Pipeline.ClassA.region (U' := UR sig nD τ) (pcfgs (F := F)) adm (pdats m) defs₀ Variants.none L₀ lv₀ 2 launch2.toP
    (R2.body_obligation (rd (U3 m))) (R2.q_eq (rd (U3 m))) (R2.owed_eq (rd (U3 m))) (R2.recorded_eq (rd (U3 m)))
    (R2.hin (rd (U3 m))) (R2.hout (rd (U3 m))) (hpref 2) (U3 m) (U4 m) (R2.A_eq (rd (U3 m)))
    (fun c w hw => by
      obtain rfl := (by decide : ∀ w : Fin cfg2.W, (cfg2.win w).isOut = true → w = 2) w hw
      exact (U4_self m c).symm)
    (fun c b hb => U4_of m c b (hb 2 rfl))

set_option backward.isDefEq.respectTransparency.types false in
def reg3 : RegionSeg (pcfgs (F := F)) adm (pdats m) () defs₀ Variants.none L₀ lv₀ 3 :=
  Pipeline.ClassA.region (U' := UR sig nD τ) (pcfgs (F := F)) adm (pdats m) defs₀ Variants.none L₀ lv₀ 3 launch3.toP
    (R3.body_obligation (rd (U4 m))) (R3.q_eq (rd (U4 m))) (R3.owed_eq (rd (U4 m))) (R3.recorded_eq (rd (U4 m)))
    (R3.hin (rd (U4 m))) (R3.hout (rd (U4 m))) (hpref 3) (U4 m) (U5 m) (R3.A_eq (rd (U4 m)))
    (fun c w hw => by
      rcases (by decide : ∀ w : Fin cfg3.W, (cfg3.win w).isOut = true → w = 3 ∨ w = 4) w hw with rfl | rfl
      · exact (U5_self0 m c).symm
      · exact (U5_self1 m c).symm)
    (fun c b hb => U5_of m c b (hb 3 rfl) (hb 4 rfl))

set_option backward.isDefEq.respectTransparency.types false in
def reg4 : RegionSeg (pcfgs (F := F)) adm (pdats m) () defs₀ Variants.none L₀ lv₀ 4 :=
  Pipeline.ClassA.region (U' := UR sig nD τ) (pcfgs (F := F)) adm (pdats m) defs₀ Variants.none L₀ lv₀ 4 launch4.toP
    (R4.body_obligation (rd (U6 m))) (R4.q_eq (rd (U6 m))) (R4.owed_eq (rd (U6 m))) (R4.recorded_eq (rd (U6 m)))
    (R4.hin (rd (U6 m))) (R4.hout (rd (U6 m))) (hpref 4) (U6 m) (U7 m) (R4.A_eq (rd (U6 m)))
    (fun c w hw => by
      obtain rfl := (by decide : ∀ w : Fin cfg4.W, (cfg4.win w).isOut = true → w = 5) w hw
      exact (U7_self m c).symm)
    (fun c b hb => U7_of m c b (hb 5 rfl))

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (fun c => ride (F := F) c) : sProp 𝕄) := by
  refine Pipeline.initEach L₀ lv₀ fun c => ?_
  unfold ride Pipeline.ClassA.rides
  iintro ⟨⟨-, HO, -, Hp, -⟩, -⟩
  imodintro
  isplitl [Hp]; · iexists _; iexact Hp
  iexists ∅; iexact HO

theorem hE5 (c : Dev nD) : ride (F := F) c ⊢ (iprop(∃ W, owes (c : Thread nD τ) (0 : CellTallies nD τ sig Unit) W) : sProp 𝕄) := by
  unfold ride Pipeline.ClassA.rides
  iintro ⟨-, H⟩; iexact H

theorem enter (c : Dev nD) (W W' : Valuation τ sig (Elt F)) (h : W = W') :
    iprop(StableHlo.held (c : Thread nD τ) (Pipeline.ucRefs τ sig) W ∗ ride (F := F) c) ⊢ Pipeline.ClassA.between (U' := UR sig nD τ) c W' :=
  h ▸ .rfl
theorem leave (c : Dev nD) (W W' : Valuation τ sig (Elt F)) (h : W' = W) :
    Pipeline.ClassA.between (U' := UR sig nD τ) c W ⊢ iprop(StableHlo.held (c : Thread nD τ) (Pipeline.ucRefs τ sig) W' ∗ ride (F := F) c) :=
  h ▸ .rfl

set_option backward.isDefEq.respectTransparency.types false in
-- Every argument array ends at its launch contents.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ (sig := sig) (nD := nD) (τ := τ)) () Variants.none L₀ lv₀ (fun _ _ => rfl) ρ (outs m) (pdats m)
    (0 : Dev nD → CellTallies nD τ sig Unit) (fun _ => (BI.emp : sProp 𝕄)) u₀ hu₀ (fun _ c => ride (F := F) c) (hE0 ρ) hE5
    (reg0 m) (fun c => enter c _ _ rfl) (fun c => leave c _ _ (V2_eq m c))
    (reg1 m) (fun c => enter c _ _ (V2_eq m c)) (fun c => leave c _ _ (V3_eq m c))
    (reg2 m) (fun c => enter c _ _ (V3_eq m c)) (fun c => leave c _ _ (V4_eq m c))
    (reg3 m) (fun c => enter c _ _ (V4_eq m c)) (fun c => leave c _ _ (V5_eq m c))
    (reg4 m) (fun c => enter c _ _ (V6_eq m c)) (fun c => leave c _ _ (V7_eq m c))

end Cert.Kernel.Asm

end
-- ==== Proof.KI.R0.lean ====
import proofs.«105382_j64407329571549_1_alg».proof.Proof.Gen.KernelIdeal.Launch
import proofs.«105382_j64407329571549_1_alg».proof.Proof.Gen.KernelIdeal.Skeleton
import proofs.«105382_j64407329571549_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The third grid axis has the single index 0, so both conditions of the body hold at every point.
theorem hcond : ∀ t : Fin cfg0.N, Scalar.cmpi .ne (Scalar.extui (Scalar.cmpi .eq (BitVec.ofNat 32 (grid0.coords t 2).val) 0#32)) 0#32 = 1#1 ∧ k0_cond2 (grid0.coords t) = 1#1 :=
  (by decide +kernel : ∀ t : Fin grid0.N, _)

theorem live : ∀ t : Fin cfg0.N, cfg0.idle 2 (grid0.coords t) = false := by decide +kernel

theorem hz : (![0, 0] : Fin 2 → Nat) = fun _ => 0 := funext fun a => by fin_cases a <;> rfl

-- Both conditions hold, so the accumulator is cleared, the product added and its maximum with zero stored: the stored block is the three payloads composed.
theorem run (c : Dev nD) {i : grid0.Coords} {arg3 arg4 arg5 : Memref sig .tc .vmem S1024x1024 .bf16} {arg6 : Memref sig .tc .vmem S1024x1024 .f32} {harg3 : arg3.IsWhole} {harg4 : arg4.IsWhole} {harg5 : arg5.IsWhole} {harg6 : arg6.IsWhole}
    (hc : Scalar.cmpi .ne (Scalar.extui (Scalar.cmpi .eq (BitVec.ofNat 32 (i 2).val) 0#32)) 0#32 = 1#1 ∧ k0_cond2 i = 1#1)
    (x0 x1 : Vec F S1024x1024 .bf16) {E : Set ℕ} {K : PUnit → sProp 𝕄} :
    iprop(owns c arg3 fullShare x0 ∗ owns c arg4 fullShare x1 ∗ (∃ d, owns c arg5 fullShare d) ∗ (∃ d, owns c arg6 fullShare d)
        ∗ (iprop(owns c arg3 fullShare x0 ∗ owns c arg4 fullShare x1 ∗ owns c arg5 fullShare (k0_pay3 (k0_pay2 x0 x1 (k0_pay1 (F := F)))) ∗ (∃ d, owns c arg6 fullShare d)) -∗ K ⟨⟩))
      ⊢ wp frame (wpE (defs₀ (F := F)) Variants.none c none) E (cc0__matmul_act_kernel i arg3 harg3 arg4 harg4 arg5 harg5 arg6 harg6) K := by
  simp only [cc0__matmul_act_kernel_eq_skeleton]; unfold cc0__matmul_act_kernel_skel
  unfold owns
  iintro ⟨⟨%f0, %hf0, H0⟩, ⟨%f1, %hf1, H1⟩, ⟨%d2, %f2, -, H2⟩, ⟨%ds0, %fs0, -, HS0⟩, Hk⟩
  obtain rfl := harg3.eq_unread hf0; obtain rfl := harg4.eq_unread hf1
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero (S := S1024x1024) hz]
    simp only [View.readCov_cons_toLoadRect, View.readCov_unit_zero (S := S1024x1024) _ hz, View.readAt_eq_ld,
      hf0, hf1, View.ld_unit_zero (S := S1024x1024) hz]
  iexists _; iexists _; isplitr; swap; · iexact HS0
  ipureintro; rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (k0_pay2 (iblk V c 0 t) (iblk V c 1 t) (k0_pay1 (F := F)))
  Φ _ := Pipeline.ΦA spec0 c
  q _ := fullShare
  owed _ := 0

theorem A_eq (c : Dev nD) (w : Fin cfg0.W) : (dat V c).A w = V c (Pipeline.arrRef spec0 w) := rfl

theorem q_eq (c : Dev nD) (w : Fin cfg0.W) : (dat V c).q w = fullShare := rfl

theorem owed_eq (c : Dev nD) (t : Fin (cfg0.N + 1)) : (dat V c).owed t = 0 := rfl

theorem recorded_eq (c : Dev nD) (t : Fin (cfg0.N + 1)) : (dat V c).recorded t = Set.univ := rfl

-- The invariant with the accumulator split off, as the body's contract takes it.
theorem Phi_eq (c : Dev nD) (t : Fin (cfg0.N + 1)) :
    ((dat V c).Φ t : sProp 𝕄)
      = iprop(iprop(iprop((∃ d, owns c (Memref.whole cc0_scratch0) fullShare d))
          ∗ Pipeline.scopedRestBut spec0 c [cc0_scratch0])
          ∗ (∃ r, prngReg c r)) := by
  show Pipeline.ΦA spec0 c = _
  unfold Pipeline.ΦA; rw [scopedRest0_split]; simp only [owns_whole]

-- The inputs are never written, so what the body reads of them at a point is the array's block there.
theorem before_in (c : Dev nD) (t : Fin cfg0.N) : (∀ d, (dat V c).before 0 t d = iblk V c 0 t) ∧ ∀ d, (dat V c).before 1 t d = iblk V c 1 t :=
  ⟨(dat V c).before_in_eq_fetched 0 rfl (fun _ => rfl) (fun _ _ _ => rfl) (fun _ => rfl) t,
    (dat V c).before_in_eq_fetched 1 rfl (fun _ => rfl) (fun _ _ _ => rfl) (fun _ => rfl) t⟩

theorem body_obligation (c : Dev nD) : BodyObligation (dat (F := F) V c) (defs₀ (F := F)) Variants.none () Set.univ := fun t => by
  rw [bigSep_W0, bigSep_W0, live t, show (dat V c).owesAt () t.succ = (dat V c).owesAt () t.castSucc from rfl]
  simp only [Phi_eq, (before_in V c t).1, (before_in V c t).2]
  show _ ⊢ wp _ _ _ (bodyAt0 t) _
  iintro ⟨⟨⟨HS0, Hr⟩, Hg⟩, Ho, ⟨%d0, H0⟩, ⟨%d1, H1⟩, ⟨%d2, H2⟩⟩
  iapply (run c (hcond t) (iblk V c 0 t) (iblk V c 1 t))
  iframe
  isplitl [H2]; · iexists _; iexact H2
  iintro ⟨H0, H1, H2, HS0⟩
  iframe
  isplitl [H0]; · iexact H0
  isplitl [H1]; · iexact H1
  iexact H2

theorem hin (c : Dev nD) : (Pipeline.ΦA spec0 c : sProp 𝕄) ⊢ (dat V c).Φ 0 := Idealize.SL.BI.Entails.refl _

theorem hout (c : Dev nD) : (dat V c).Φ (Fin.last cfg0.N) ⊢ (Pipeline.ΦA spec0 c : sProp 𝕄) := Idealize.SL.BI.Entails.refl _

end Cert.KernelIdeal.R0

end
-- ==== Proof.KI.R1.lean ====
import proofs.«105382_j64407329571549_1_alg».proof.Proof.Gen.KernelIdeal.Launch
import proofs.«105382_j64407329571549_1_alg».proof.Proof.Gen.KernelIdeal.Skeleton
import proofs.«105382_j64407329571549_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev kFirst (i : grid1.Coords) : Prop :=
  (Scalar.cmpi .ne (Scalar.extui (Scalar.cmpi .eq (BitVec.ofNat 32 (i 2).val) 0#32)) 0#32) = 1#1

-- The innermost grid coordinate has two values, so a point's parity decides each of these.
theorem pts : ∀ t : Fin cfg1.N, cfg1.idle 0 (grid1.coords t) = false
    ∧ (t.val % 2 = 0 → kFirst (grid1.coords t) ∧ ¬k1_cond2 (grid1.coords t) = 1#1 ∧ cfg1.idle 2 (grid1.coords t) = true ∧ (cfg1.win 2).flush t = false)
    ∧ (t.val % 2 = 1 → ¬kFirst (grid1.coords t) ∧ k1_cond2 (grid1.coords t) = 1#1 ∧ cfg1.idle 2 (grid1.coords t) = false) :=
  (by decide +kernel : ∀ t : Fin grid1.N, _)

theorem hz : (![0, 0] : Fin 2 → Nat) = fun _ => 0 := funext fun a => by fin_cases a <;> rfl

section Run

variable (c : Dev nD) (i : grid1.Coords) {arg3 arg4 : Memref sig .tc .vmem S1024x2048 .bf16} {arg5 : Memref sig .tc .vmem S1024x1024 .bf16}
  {arg6 : Memref sig .tc .vmem S1024x1024 .f32} (harg3 : arg3.IsWhole) (harg4 : arg4.IsWhole) (harg5 : arg5.IsWhole) (harg6 : arg6.IsWhole)
  (x0 x1 : Vec F S1024x2048 .bf16)

-- k = 0: whatever the accumulator held, it ends at the update of the zero block.
theorem runFirst (hc0 : kFirst i) (hc1 : ¬k1_cond2 i = 1#1) (xi2 : Vec F S1024x1024 .bf16) (E : Set ℕ) (K : PUnit → sProp 𝕄) :
    iprop(owns c.tc arg3 fullShare x0 ∗ owns c.tc arg4 fullShare x1 ∗ owns c.tc arg5 fullShare xi2 ∗ (∃ d, owns c.tc arg6 fullShare d)
        ∗ (iprop(owns c.tc arg3 fullShare x0 ∗ owns c.tc arg4 fullShare x1 ∗ owns c.tc arg5 fullShare xi2 ∗ owns c.tc arg6 fullShare (k1_pay2 x0 x1 k1_pay1)) -∗ K ⟨⟩))
      ⊢ wp frame (wpE (defs₀ (F := F)) Variants.none c none) E (cc1__matmul_act_kernel i arg3 harg3 arg4 harg4 arg5 harg5 arg6 harg6) K := by
  simp only [cc1__matmul_act_kernel_eq_skeleton]; unfold cc1__matmul_act_kernel_skel owns
  iintro ⟨⟨%f0, %hf0, H0⟩, ⟨%f1, %hf1, H1⟩, ⟨%f2, %hf2, H2⟩, ⟨%ds0, %fs0, -, HS0⟩, Hk⟩
  subst hf0 hf1 hf2
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; swap; · iexact HS0
  ipureintro
  refine (View.read_writes_eq_canon _ _ _ (View.cover_of_tiledL _ S1024x1024.size ?_)).trans ?_
  · sl_kernel_rfl
  sl_unfold_words
  rw [View.canon_cons_unit_zero (S := S1024x1024) hz, View.readCov_unit_zero (S := S1024x1024) _ hz]
  simp only [View.readAt_eq_ld, View.ld_unit_zero (S := S1024x2048) hz]

-- k = 1: the accumulator at `xs0` ends at its update, the result block at the rectified update.
theorem runLast (hc0 : ¬kFirst i) (hc1 : k1_cond2 i = 1#1) (xs0 : Vec F S1024x1024 .f32) (E : Set ℕ) (K : PUnit → sProp 𝕄) :
    iprop(owns c.tc arg3 fullShare x0 ∗ owns c.tc arg4 fullShare x1 ∗ (∃ d, owns c.tc arg5 fullShare d) ∗ owns c.tc arg6 fullShare xs0
        ∗ (iprop(owns c.tc arg3 fullShare x0 ∗ owns c.tc arg4 fullShare x1 ∗ owns c.tc arg5 fullShare (k1_pay3 (k1_pay2 x0 x1 xs0)) ∗ owns c.tc arg6 fullShare (k1_pay2 x0 x1 xs0)) -∗ K ⟨⟩))
      ⊢ wp frame (wpE (defs₀ (F := F)) Variants.none c none) E (cc1__matmul_act_kernel i arg3 harg3 arg4 harg4 arg5 harg5 arg6 harg6) K := by
  simp only [cc1__matmul_act_kernel_eq_skeleton]; unfold cc1__matmul_act_kernel_skel owns
  iintro ⟨⟨%f0, %hf0, H0⟩, ⟨%f1, %hf1, H1⟩, ⟨%d2, %f2, -, H2⟩, ⟨%fs0, %hfs0, HS0⟩, Hk⟩
  subst hf0 hf1 hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero hz, View.readCov_unit_zero (S := S1024x1024) _ hz]
    simp only [View.readAt_eq_ld, View.ld_unit_zero (S := S1024x2048) hz, View.ld_unit_zero (S := S1024x1024) hz]
  iexists _; isplitr; swap; · iexact HS0
  ipureintro
  refine (View.read_writes_eq_canon _ _ _ (View.cover_of_tiledL _ S1024x1024.size ?_)).trans ?_
  · sl_kernel_rfl
  sl_unfold_words
  rw [View.canon_unit_zero hz]
  simp only [View.readAt_eq_ld, View.ld_unit_zero (S := S1024x2048) hz, View.ld_unit_zero (S := S1024x1024) hz]

end Run

abbrev accM : Memref sig .tc .vmem S1024x1024 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

-- The launch's invariant holds the accumulator at some contents.
theorem PhiA_eq (c : Dev nD) :
    (Pipeline.ΦA spec1 c : sProp 𝕄)
      = iprop(iprop(iprop((∃ d, owns c.tc accM fullShare d)) ∗ restBut (F := F) c) ∗ (∃ r, prngReg c r)) := by
  unfold Pipeline.ΦA; rw [scopedRest1_split]; simp only [accM, owns_whole]; try rfl

variable (V : (c : Dev nD) → (b : Ref sig .tc) → Buf (Elt F) ((c : Thread nD τ).loc b)) (c : Dev nD)

def inBlock (w : Fin cfg1.W) (t : Fin cfg1.N) : ((cfg1.win w).xblock (cfg1.grid.coords t)).Idx → Elt F (cfg1.win w).elt :=
  ((cfg1.win w).blk t).view.read (Elt F) (V c (Pipeline.arrRef spec1 w))

-- The partial product of point `t`'s two blocks, over the zero block.
abbrev half (t : Fin cfg1.N) : Vec F S1024x1024 .f32 := k1_pay2 (inBlock V c 0 t) (inBlock V c 1 t) k1_pay1

-- Before an odd point the invariant names the accumulator: the partial product of the point before. At an even point the result block's entry is a placeholder.
def dat : Dat τ (Elt F) Unit ℕ (UR sig nD τ) ℕ cfg1 c where
  A w := V c (Pipeline.arrRef spec1 w)
  after w t := match w with
    | ⟨0, _⟩ => inBlock V c 0 t
    | ⟨1, _⟩ => inBlock V c 1 t
    | ⟨2, _⟩ => k1_pay3 (k1_pay2 (inBlock V c 0 t) (inBlock V c 1 t) (half V c ⟨t.val - 1, (Nat.sub_le _ _).trans_lt t.isLt⟩))
  Φ t := if t.val % 2 = 1 then iprop(iprop(owns c.tc accM fullShare (half V c ⟨t.val - 1, by have := t.isLt; have : cfg1.N = 256 := N_1; omega⟩) ∗ restBut (F := F) c) ∗ (∃ r, prngReg c r))
    else Pipeline.ΦA spec1 c
  q _ := fullShare
  owed _ := 0

theorem A_eq (w : Fin cfg1.W) : (dat V c).A w = V c (Pipeline.arrRef spec1 w) := rfl
theorem q_eq (w : Fin cfg1.W) : (dat V c).q w = fullShare := rfl
theorem owed_eq (t : Fin (cfg1.N + 1)) : (dat V c).owed t = 0 := rfl
theorem recorded_eq (t : Fin (cfg1.N + 1)) : (dat V c).recorded t = Set.univ := rfl

theorem before_0 (t : Fin cfg1.N) (d) : (dat V c).before 0 t d = inBlock V c 0 t := (dat V c).before_fetched 0 t (fetch1_0 t) d
theorem before_1 (t : Fin cfg1.N) (d) : (dat V c).before 1 t d = inBlock V c 1 t := (dat V c).before_fetched 1 t (fetch1_1 t) d

theorem body_obligation : BodyObligation (dat (F := F) V c) (defs₀ (F := F)) Variants.none () Set.univ := fun t => by
  obtain ⟨i0, ie, io⟩ := pts t
  rw [bigSep_W1, bigSep_W1]
  change iprop(_ ∗ _ ∗ (∃ d, owns _ _ _ ((dat V c).before 0 t d)) ∗ (∃ d, owns _ _ _ ((dat V c).before 1 t d)) ∗ ∃ d, owns _ _ _ ((dat V c).before 2 t d))
    ⊢ wp _ _ _ (bodyAt1 t) fun _ => iprop(_ ∗ (dat V c).owesAt () t.castSucc ∗ (dat V c).leavesExact 0 t ∗ (dat V c).leavesExact 1 t ∗ (dat V c).leavesExact 2 t)
  rcases Nat.mod_two_eq_zero_or_one t.val with h | h
  · obtain ⟨k0, k1, i2, f2⟩ := ie h
    rewrite [Dat.leavesExact_idle (dat V c) 2 t i2 f2, show (dat V c).Φ t.castSucc = _ from if_neg (by omega : ¬t.val % 2 = 1), PhiA_eq,
      show (dat V c).Φ t.succ = iprop(iprop(owns c.tc accM fullShare (half V c t) ∗ restBut (F := F) c) ∗ (∃ r, prngReg c r)) from
        if_pos (by show (t.val + 1) % 2 = 1; omega)]
    unfold bodyAt1 Dat.leavesExact
    rewrite [i0]
    simp only [before_0, before_1]
    iintro ⟨⟨⟨HS, Hr⟩, Hg⟩, Ho, ⟨%d0, H0⟩, ⟨%d1, H1⟩, ⟨%d2, H2⟩⟩
    iapply (runFirst c _ _ _ _ _ (inBlock V c 0 t) (inBlock V c 1 t) k0 k1 ((dat V c).before 2 t d2) _ _)
    iframe
    iintro ⟨H0, H1, H2, HS⟩
    iframe
    isplitl [H0]; · iexact H0
    isplitl [H1]; · iexact H1
    iexists _; iexact H2
  · obtain ⟨k0, k1, i2⟩ := io h
    rewrite [show (dat V c).Φ t.succ = _ from if_neg (by show ¬(t.val + 1) % 2 = 1; omega), PhiA_eq,
      show (dat V c).Φ t.castSucc = _ from if_pos (show t.val % 2 = 1 from h)]
    unfold bodyAt1 Dat.leavesExact
    rewrite [i0, i2]
    simp only [before_0, before_1]
    iintro ⟨⟨⟨HS, Hr⟩, Hg⟩, Ho, ⟨%d0, H0⟩, ⟨%d1, H1⟩, ⟨%d2, H2⟩⟩
    iapply (runLast c _ _ _ _ _ (inBlock V c 0 t) (inBlock V c 1 t) k0 k1 _ _ _)
    iframe
    isplitl [H2]; · iexists _; iexact H2
    iintro ⟨H0, H1, H2, HS⟩
    isplitl [HS]; · iexists _; iexact HS
    isplitl [H0]; · iexact H0
    isplitl [H1]; · iexact H1
    iexact H2

theorem hin : (Pipeline.ΦA spec1 c : sProp 𝕄) ⊢ (dat V c).Φ 0 := Idealize.SL.BI.Entails.refl _

theorem hout : (dat V c).Φ (Fin.last cfg1.N) ⊢ (Pipeline.ΦA spec1 c : sProp 𝕄) := Idealize.SL.BI.Entails.refl _

end Cert.KernelIdeal.R1

end
-- ==== Proof.KI.R2.lean ====
import proofs.«105382_j64407329571549_1_alg».proof.Proof.Gen.KernelIdeal.Launch
import proofs.«105382_j64407329571549_1_alg».proof.Proof.Gen.KernelIdeal.Skeleton
import proofs.«105382_j64407329571549_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev resetCond (i : grid2.Coords) : Prop := (Scalar.cmpi .ne (Scalar.extui (Scalar.cmpi .eq (BitVec.ofNat 32 (i 2).val) 0#32)) 0#32) = 1#1
abbrev emitCond (i : grid2.Coords) : Prop := k2_cond2 i = 1#1

-- The innermost coordinate is the point's parity: an even point starts a sum and leaves the result's block alone,
theorem even_pt : ∀ t : Fin cfg2.N, t.val % 2 = 0 → (resetCond (grid2.coords t) ∧ ¬emitCond (grid2.coords t)) ∧ cfg2.idle 2 (grid2.coords t) = true ∧ (cfg2.win 2).flush t = false :=
  (by decide +kernel : ∀ t : Fin grid2.N, _)
-- an odd point ends it.
theorem odd_pt : ∀ t : Fin cfg2.N, ¬t.val % 2 = 0 → (¬resetCond (grid2.coords t) ∧ emitCond (grid2.coords t)) ∧ cfg2.idle 2 (grid2.coords t) = false :=
  (by decide +kernel : ∀ t : Fin grid2.N, _)

abbrev accM : Memref sig .tc .vmem S1024x1024 .f32 := Memref.whole cc2_scratch0

abbrev others (c : Dev nD) : sProp 𝕄 :=
  Pipeline.scopedRestBut (Ix := Unit) (Name := ℕ) (U := UR sig nD τ) (Lvl := ℕ) (Val := Elt F) spec2 c [cc2_scratch0]

theorem PhiA_eq (c : Dev nD) :
    (Pipeline.ΦA spec2 c : sProp 𝕄)
      = iprop(iprop(iprop((∃ d, owns c accM fullShare d)) ∗ others c) ∗ (∃ r, prngReg c r)) := by
  unfold Pipeline.ΦA; rw [scopedRest2_split]; simp only [accM, owns_whole]; try rfl

theorem hz : (![0, 0] : Fin 2 → Nat) = fun _ => 0 := funext fun a => by fin_cases a <;> rfl

section Run

variable (c : Dev nD) {i : grid2.Coords} {arg3 arg4 : Memref sig .tc .vmem S1024x2048 .bf16} {arg5 arg6 : Memref sig .tc .vmem S1024x1024 .f32}
  {harg3 : arg3.IsWhole} {harg4 : arg4.IsWhole} {harg5 : arg5.IsWhole} {harg6 : arg6.IsWhole} (x0 x1 : Vec F S1024x2048 .bf16)

-- Where a sum starts the accumulator is cleared and the product of the two blocks added: it ends at one step from the zero block.
theorem runReset (hc : resetCond i ∧ ¬emitCond i) {E : Set ℕ} {K : PUnit → sProp 𝕄} :
    iprop(owns c arg3 fullShare x0 ∗ owns c arg4 fullShare x1 ∗ (∃ d, owns c arg6 fullShare d)
        ∗ (iprop(owns c arg3 fullShare x0 ∗ owns c arg4 fullShare x1 ∗ owns c arg6 fullShare (k2_pay2 x0 x1 (k2_pay1 (F := F)))) -∗ K ⟨⟩))
      ⊢ wp frame (wpE (defs₀ (F := F)) Variants.none c none) E (cc2__matmul_act_kernel i arg3 harg3 arg4 harg4 arg5 harg5 arg6 harg6) K := by
  simp only [cc2__matmul_act_kernel_eq_skeleton]; unfold cc2__matmul_act_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  iexists _; isplitr; swap; · iexact HS
  ipureintro
  refine (View.read_writes_eq_canon _ _ _ (View.cover_of_tiledL _ S1024x1024.size ?_)).trans ?_
  · sl_kernel_rfl
  sl_unfold_words
  rw [View.canon_cons_unit_zero (S := S1024x1024) hz, View.readCov_unit_zero (S := S1024x1024) _ hz]
  simp only [View.readAt_eq_ld, hf0, hf1, View.ld_unit_zero (S := S1024x2048) hz]

-- Where a sum ends the product is added to the accumulator and the sum stored in the result's block: one step from what the accumulator held.
theorem runEmit (xs : Vec F S1024x1024 .f32) (hc : ¬resetCond i ∧ emitCond i) {E : Set ℕ} {K : PUnit → sProp 𝕄} :
    iprop(owns c arg3 fullShare x0 ∗ owns c arg4 fullShare x1 ∗ (∃ d, owns c arg5 fullShare d) ∗ owns c arg6 fullShare xs
        ∗ (iprop(owns c arg3 fullShare x0 ∗ owns c arg4 fullShare x1 ∗ owns c arg5 fullShare (k2_pay2 x0 x1 xs) ∗ (∃ d, owns c arg6 fullShare d)) -∗ K ⟨⟩))
      ⊢ wp frame (wpE (defs₀ (F := F)) Variants.none c none) E (cc2__matmul_act_kernel i arg3 harg3 arg4 harg4 arg5 harg5 arg6 harg6) K := by
  simp only [cc2__matmul_act_kernel_eq_skeleton]; unfold cc2__matmul_act_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc.1 | exact hc.2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    refine (View.read_writes_eq_canon _ _ _ (View.cover_of_tiledL _ S1024x1024.size ?_)).trans ?_
    · sl_kernel_rfl
    sl_unfold_words
    rw [View.canon_unit_zero (S := S1024x1024) hz, View.readCov_unit_zero (S := S1024x1024) _ hz]
    simp only [View.readAt_eq_ld, hf0, hf1, hfs, View.ld_unit_zero (S := S1024x2048) hz, View.ld_unit_zero (S := S1024x1024) hz]
  iexists _, _; isplitr; swap; · iexact HS
  ipureintro; rfl

end Run

variable (V : (c : Dev nD) → (b : Ref sig .tc) → Buf (Elt F) ((c : Thread nD τ).loc b)) (c : Dev nD)

def blockAt (w : Fin cfg2.W) (t : Fin cfg2.N) : ((cfg2.win w).xblock (cfg2.grid.coords t)).Idx → Elt F (cfg2.win w).elt :=
  ((cfg2.win w).blk t).view.read (Elt F) (V c (Pipeline.arrRef spec2 w))

-- The accumulator after an even point: one step from the zero block over the two blocks there.
def acc (t : Fin cfg2.N) : Vec F S1024x1024 .f32 := k2_pay2 (blockAt V c 0 t) (blockAt V c 1 t) (k2_pay1 (F := F))

abbrev prev (t : Fin cfg2.N) : Fin cfg2.N := ⟨t.val - 1, Nat.lt_of_le_of_lt (Nat.sub_le _ _) t.isLt⟩

-- Before an even position the accumulator holds anything; before an odd one what the even point before it left.
def inv (n : ℕ) (hn : n ≤ cfg2.N) : sProp 𝕄 :=
  if h : n % 2 = 0 then Pipeline.ΦA spec2 c
  else iprop(iprop(owns c accM fullShare (acc V c ⟨n - 1, by omega⟩) ∗ others c) ∗ (∃ r, prngReg c r))

theorem inv_even (n : ℕ) (hn : n ≤ cfg2.N) (h : n % 2 = 0) : inv V c n hn = Pipeline.ΦA spec2 c := dif_pos h

-- The result's block after a point: one step over the point's blocks from what the point before left (read only after the odd points).
def dat : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => k2_pay2 (blockAt V c 0 t) (blockAt V c 1 t) (acc V c (prev t))
  Φ t := inv V c t.val (Nat.le_of_lt_succ t.isLt)
  q _ := fullShare
  owed _ := 0

theorem A_eq (w : Fin cfg2.W) : (dat V c).A w = V c (Pipeline.arrRef spec2 w) := rfl

theorem q_eq (w : Fin cfg2.W) : (dat V c).q w = fullShare := rfl

theorem owed_eq (t : Fin (cfg2.N + 1)) : (dat V c).owed t = 0 := rfl

theorem recorded_eq (t : Fin (cfg2.N + 1)) : (dat V c).recorded t = Set.univ := rfl

-- What the body finds of a factor at a point is the array's block there.
theorem before_lhs (t : Fin cfg2.N) (d) : (dat V c).before 0 t d = blockAt V c 0 t :=
  ((dat V c).before_in_eq_fetched 0 rfl (fun _ => rfl) (fun _ _ _ => rfl) (fun _ => rfl) t d).trans rfl
theorem before_rhs (t : Fin cfg2.N) (d) : (dat V c).before 1 t d = blockAt V c 1 t :=
  ((dat V c).before_in_eq_fetched 1 rfl (fun _ => rfl) (fun _ _ _ => rfl) (fun _ => rfl) t d).trans rfl

theorem body_obligation : BodyObligation (dat (F := F) V c) (defs₀ (F := F)) Variants.none () Set.univ := fun t => by
  rw [bigSep_W2, bigSep_W2]
  show _ ⊢ wp _ _ _ (bodyAt2 t) (fun _ => iprop((dat V c).Φ t.succ ∗ (dat V c).owesAt () t.castSucc
    ∗ owns c _ fullShare (blockAt V c 0 t) ∗ owns c _ fullShare (blockAt V c 1 t) ∗ (dat V c).leavesExact 2 t))
  simp only [before_lhs, before_rhs]
  rw [show (dat V c).Φ t.succ = inv V c (t.val + 1) t.isLt from rfl,
    show (dat V c).Φ t.castSucc = inv V c t.val (Nat.le_of_lt t.isLt) from rfl]
  unfold inv
  by_cases h0 : t.val % 2 = 0
  · rw [dif_pos h0, dif_neg (show ¬(t.val + 1) % 2 = 0 by omega),
      (dat V c).leavesExact_idle 2 t (even_pt t h0).2.1 (even_pt t h0).2.2, PhiA_eq]
    iintro ⟨⟨⟨HS, HR⟩, Hg⟩, Ho, ⟨%d0, H0⟩, ⟨%d1, H1⟩, H2⟩
    iapply (runReset c (blockAt V c 0 t) (blockAt V c 1 t) (even_pt t h0).1)
    iframe H0 H1 HS
    iintro ⟨H0, H1, HS⟩
    iframe
    iexact HS
  · rw [dif_neg h0, dif_pos (show (t.val + 1) % 2 = 0 by omega), PhiA_eq,
      show (dat V c).leavesExact 2 t = owns c (win2_2.stage (cfg2.slots t 2)) fullShare (k2_pay2 (blockAt V c 0 t) (blockAt V c 1 t) (acc V c (prev t))) from by
        unfold Dat.leavesExact; rw [(odd_pt t h0).2]; dsimp only [dat]]
    iintro ⟨⟨⟨HS, HR⟩, Hg⟩, Ho, ⟨%d0, H0⟩, ⟨%d1, H1⟩, ⟨%d2, H2⟩⟩
    iapply (runEmit c (blockAt V c 0 t) (blockAt V c 1 t) (acc V c (prev t)) (odd_pt t h0).1)
    iframe H0 H1 HS
    isplitl [H2]; · iexists _; iexact H2
    iintro ⟨H0, H1, H2, HS⟩
    iframe

theorem hin : (Pipeline.ΦA spec2 c : sProp 𝕄) ⊢ (dat V c).Φ 0 := by
  rw [show (dat V c).Φ 0 = _ from inv_even V c 0 (Nat.zero_le _) (Nat.zero_mod 2)]

theorem hout : (dat V c).Φ (Fin.last cfg2.N) ⊢ (Pipeline.ΦA spec2 c : sProp 𝕄) := by
  rw [show (dat V c).Φ (Fin.last cfg2.N) = _ from inv_even V c cfg2.N (Nat.le_refl _) (by rw [show cfg2.N = 64 from N_2])]

end Cert.KernelIdeal.R2

end
-- ==== Proof.KI.R3.lean ====
import proofs.«105382_j64407329571549_1_alg».proof.Proof.Gen.KernelIdeal.Launch
import proofs.«105382_j64407329571549_1_alg».proof.Proof.Gen.KernelIdeal.Skeleton
import proofs.«105382_j64407329571549_1_alg».proof.Proof.Gen.KernelIdeal.Points
import Idealize.ShloMosaic.Lib.Pipeline.FrameBody
import Idealize.ShloMosaic.Lib.Tactic

noncomputable section

namespace Cert.KernelIdeal.R3

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) := ((cfg3.win w).blk t).view.read (Elt F) (V c (Pipeline.arrRef spec3 w))

abbrev whole : Rect S1024x1024 := Rect.unit (s := S1024x1024) ![0, 0] S1024x1024.size inb_S1024x1024_S1024x1024_0_0

-- The array that is, at every index, a payload of the two blocks read over the full rectangle.
def out (pay : Vec F S1024x1024 .bf16 → Vec F S1024x1024 .bf16 → FVec F S1024x1024 .f32) (a b : Vec F S1024x1024 .bf16) : Vec F S1024x1024 .f32 :=
  View.canon [⟨whole, pay (View.ld a whole) (View.ld b whole)⟩]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out k3_pay2 (iblk V c 0 t) (iblk V c 1 t)
    | ⟨4, _⟩ => out k3_pay3 (iblk V c 0 t) (iblk V c 2 t)
  Φ _ := Pipeline.ΦA spec3 c
  q _ := fullShare
  owed _ := 0

theorem A_eq (c : Dev nD) (w : Fin cfg3.W) : (dat V c).A w = V c (Pipeline.arrRef spec3 w) := rfl

theorem q_eq (c : Dev nD) (w : Fin cfg3.W) : (dat V c).q w = fullShare := rfl

theorem owed_eq (c : Dev nD) (t : Fin (cfg3.N + 1)) : (dat V c).owed t = 0 := rfl

theorem recorded_eq (c : Dev nD) (t : Fin (cfg3.N + 1)) : (dat V c).recorded t = Set.univ := rfl

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

-- Rewrites what the body is given for each input, at any point, to that input's block there.
theorem before_in (c : Dev nD) (t : Fin cfg3.N) : (∀ d, (dat V c).before 0 t d = iblk V c 0 t) ∧ (∀ d, (dat V c).before 1 t d = iblk V c 1 t)
    ∧ (∀ d, (dat V c).before 2 t d = iblk V c 2 t) := by
  refine ⟨?_, ?_, ?_⟩ <;> exact (dat V c).before_in_eq_fetched _ rfl (fun _ => rfl) (fun _ _ _ => rfl) (fun _ => rfl) t

abbrev own (c : Dev nD) {e : EltTy} (m : Memref sig .tc .vmem S1024x1024 e) (X : Vec F S1024x1024 e) : sProp 𝕄 :=
  owns (c : Thread nD τ) m fullShare X

-- The full rectangle covers every index, so overwriting on it forgets the earlier contents.
theorem own_out (c : Dev nD) (m : Memref sig .tc .vmem S1024x1024 .f32) (f) (p : Vec F S1024x1024 .f32) :
    (m.view.loc (c : Thread nD τ) ↦[m.view.set]{fullShare} m.view.writes (Elt F) f [⟨whole, p⟩] : sProp 𝕄) ⊢ own c m (View.canon [⟨whole, p⟩]) := by
  unfold own owns; iintro H; iexists m.view.writes (Elt F) f [⟨whole, p⟩]; isplitr
  · ipureintro; exact View.read_writes_eq_canon _ f _ (View.cover_of_tiled _ S1024x1024.size (by rfl))
  · iexact H

-- The body preserves any P and Q and its three inputs, and makes each output a payload of the inputs.
theorem body_spec (c : Dev nD) (i : grid3.Coords) {m1 m2 m3 : Memref sig .tc .vmem S1024x1024 .bf16} {m4 m5 : Memref sig .tc .vmem S1024x1024 .f32}
    (h1 : m1.IsWhole) (h2 : m2.IsWhole) (h3 : m3.IsWhole) (h4 : m4.IsWhole) (h5 : m5.IsWhole) (a b1 b2 : Vec F S1024x1024 .bf16)
    {D1 D2 D3 D4 D5 : Type} (x4 : D4 → Vec F S1024x1024 .f32) (x5 : D5 → Vec F S1024x1024 .f32) (P Q : sProp 𝕄) :
    iprop(P ∗ Q ∗ (∃ _ : D1, own c m1 a) ∗ (∃ _ : D2, own c m2 b1) ∗ (∃ _ : D3, own c m3 b2) ∗ (∃ d, own c m4 (x4 d)) ∗ (∃ d, own c m5 (x5 d)))
      ⊢ wp frame (wpE (defs₀ (F := F)) Variants.none c none) Set.univ (cc3__dual_linear_kernel i m1 h1 m2 h2 m3 h3 m4 h4 m5 h5)
        fun _ => iprop(P ∗ Q ∗ own c m1 a ∗ own c m2 b1 ∗ own c m3 b2 ∗ own c m4 (out k3_pay2 a b1) ∗ own c m5 (out k3_pay3 a b2)) := by
  simp only [cc3__dual_linear_kernel_eq_skeleton]; unfold cc3__dual_linear_kernel_skel
  conv_lhs => unfold own owns
  iintro ⟨HP, HQ, ⟨%_, %f0, %e0, H0⟩, ⟨%_, %f1, %e1, H1⟩, ⟨%_, %f2, %e2, H2⟩, ⟨%_, %f3, -, H3⟩, ⟨%_, %f4, -, H4⟩⟩
  subst e0 e1 e2
  sl_exec
  sl_step
  iframe HP HQ
  isplitl [H0]; · iapply owns_intro; iexact H0
  isplitl [H1]; · iapply owns_intro; iexact H1
  isplitl [H2]; · iapply owns_intro; iexact H2
  isplitl [H3]; · iapply own_out; iexact H3
  iapply own_out; iexact H4

theorem body_obligation (c : Dev nD) : BodyObligation (dat (F := F) V c) (defs₀ (F := F)) Variants.none () Set.univ := fun t => by
  rw [bigSep_W3, bigSep_W3]
  simp only [before_in V c t]
  dsimp only [dat]
  exact body_spec c (grid3.coords t) (stage_whole3 0 _) (stage_whole3 1 _) (stage_whole3 2 _) (stage_whole3 3 _) (stage_whole3 4 _) _ _ _ _ _ _ _

end Cert.KernelIdeal.R3

end
-- ==== Proof.KI.R4.lean ====
import proofs.«105382_j64407329571549_1_alg».proof.Proof.Gen.KernelIdeal.Launch
import proofs.«105382_j64407329571549_1_alg».proof.Proof.Gen.KernelIdeal.Skeleton
import proofs.«105382_j64407329571549_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem zeroOffsets : (![0, 0] : Fin 2 → Nat) = fun _ => 0 := funext fun a => by fin_cases a <;> rfl

def dat (c : Dev nD) : Dat τ (Elt F) Unit ℕ (UR sig nD τ) ℕ cfg4 c where
  A w := V c (Pipeline.arrRef spec4 w)
  after w t := match w with
    | ⟨5, _⟩ => k4_pay1 (tile V c 0 t) (tile V c 1 t) (tile V c 2 t) (tile V c 3 t) (tile V c 4 t)
    | ⟨0, _⟩ => tile V c 0 t
    | ⟨1, _⟩ => tile V c 1 t
    | ⟨2, _⟩ => tile V c 2 t
    | ⟨3, _⟩ => tile V c 3 t
    | ⟨4, _⟩ => tile V c 4 t
  Φ _ := Pipeline.ΦA spec4 c
  q _ := fullShare
  owed _ := 0

theorem A_eq (c : Dev nD) (w : Fin cfg4.W) : (dat V c).A w = V c (Pipeline.arrRef spec4 w) := rfl
theorem q_eq (c : Dev nD) (w : Fin cfg4.W) : (dat V c).q w = fullShare := rfl
theorem owed_eq (c : Dev nD) (t : Fin (cfg4.N + 1)) : (dat V c).owed t = 0 := rfl
theorem recorded_eq (c : Dev nD) (t : Fin (cfg4.N + 1)) : (dat V c).recorded t = Set.univ := rfl
theorem hin (c : Dev nD) : (Pipeline.ΦA spec4 c : sProp 𝕄) ⊢ (dat V c).Φ 0 := .rfl
theorem hout (c : Dev nD) : (dat V c).Φ (Fin.last cfg4.N) ⊢ (Pipeline.ΦA spec4 c : sProp 𝕄) := .rfl

-- at an input window `before` and `after` are both the window's block of the entered array
theorem finds (c : Dev nD) (t : Fin cfg4.N) : ∀ w : Fin cfg4.W, w ≠ 5 → ∀ d, (dat V c).before w t d = (dat V c).after w t
  | ⟨5, _⟩, h, _ => absurd rfl h
  | ⟨0, _⟩, _, d | ⟨1, _⟩, _, d | ⟨2, _⟩, _, d | ⟨3, _⟩, _, d | ⟨4, _⟩, _, d =>
    (dat V c).before_in_eq_fetched _ rfl (fun _ => rfl) (fun _ _ _ => rfl) (fun _ => rfl) t d

-- five whole buffers are read and the sixth is overwritten with the payload of what was read
theorem body_runs (c : Dev nD) {i : grid4.Coords}
    {a0 a1 a2 a5 : Memref sig .tc .vmem S512x1024 .f32} {a3 a4 : Memref sig .tc .vmem S1x1024 .f32}
    {h0 : a0.IsWhole} {h1 : a1.IsWhole} {h2 : a2.IsWhole} {h3 : a3.IsWhole} {h4 : a4.IsWhole} {h5 : a5.IsWhole}
    (z0 z1 z2 d : Vec F S512x1024 .f32) (g b : Vec F S1x1024 .f32) {K : PUnit → sProp 𝕄} :
    iprop(owns c a5 fullShare d ∗ owns c a0 fullShare z0 ∗ owns c a1 fullShare z1 ∗ owns c a2 fullShare z2 ∗ owns c a3 fullShare g
        ∗ owns c a4 fullShare b
        ∗ (iprop(owns c a5 fullShare (k4_pay1 z0 z1 z2 g b) ∗ owns c a0 fullShare z0 ∗ owns c a1 fullShare z1 ∗ owns c a2 fullShare z2
            ∗ owns c a3 fullShare g ∗ owns c a4 fullShare b) -∗ K ⟨⟩))
      ⊢ wp frame (wpE (defs₀ (F := F)) Variants.none c none) Set.univ (cc4__add_ln_kernel i a0 h0 a1 h1 a2 h2 a3 h3 a4 h4 a5 h5) K := by
  simp only [cc4__add_ln_kernel_eq_skeleton]; unfold cc4__add_ln_kernel_skel owns
  iintro ⟨⟨%f5, -, H5⟩, ⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H5]
  · iexists _; isplitr
    swap; · iexact H5
    ipureintro
    refine (View.read_writes_eq_canon _ _ _ (View.cover_of_tiled _ S512x1024.size (by rfl))).trans ?_
    rw [View.canon_unit_zero (S := S512x1024) zeroOffsets]
    simp only [View.readAt_eq_ld, View.ld_unit_zero (S := S512x1024) zeroOffsets, View.ld_unit_zero (S := S1x1024) zeroOffsets]
  sl_close

theorem body_obligation (c : Dev nD) : BodyObligation (dat (F := F) V c) (defs₀ (F := F)) Variants.none () Set.univ := fun t => by
  rw [bigSep_W4, bigSep_W4]
  simp (disch := decide) only [finds]
  show _ ⊢ wp _ _ _ (bodyAt4 t) _
  rw [show (dat V c).owesAt () t.succ = (dat V c).owesAt () t.castSucc from rfl]
  dsimp only [dat]
  iintro ⟨HΦ, Ho, ⟨%_, H0⟩, ⟨%_, H1⟩, ⟨%_, H2⟩, ⟨%_, H3⟩, ⟨%_, H4⟩, ⟨%d, H5⟩⟩
  iapply (body_runs c (tile V c 0 t) (tile V c 1 t) (tile V c 2 t) _ (tile V c 3 t) (tile V c 4 t))
  iframe H0 H1 H2 H3 H4 H5
  iintro ⟨H5, H0, H1, H2, H3, H4⟩
  iframe

end Cert.KernelIdeal.R4

end
-- ==== Proof.KI.Frame.lean ====
import proofs.«105382_j64407329571549_1_alg».proof.Proof.Gen.KernelIdeal.Regions
import proofs.«105382_j64407329571549_1_alg».proof.Proof.KI.R0
import proofs.«105382_j64407329571549_1_alg».proof.Proof.KI.R1
import proofs.«105382_j64407329571549_1_alg».proof.Proof.KI.R2
import proofs.«105382_j64407329571549_1_alg».proof.Proof.KI.R3
import proofs.«105382_j64407329571549_1_alg».proof.Proof.KI.R4
import proofs.«105382_j64407329571549_1_alg».proof.Proof.LibClassARegion

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) (c : Dev nD) (b : Ref sig .tc) : Buf (Elt F) ((c : Thread nD τ).loc b) := W c b

-- The buffers' contents between the items of the program: a region changes only its result arrays.
def U1 (c : Dev nD) : Valuation τ sig (Elt F) := V1 m c
def U2 (c : Dev nD) : Valuation τ sig (Elt F) := Function.update (U1 m c) main_v22 ((R0.dat (rd (U1 m)) c).arrAt 2 cfg0.N)
def U3 (c : Dev nD) : Valuation τ sig (Elt F) := Function.update (U2 m c) main_v23 ((R1.dat (rd (U2 m)) c).arrAt 2 cfg1.N)
def U4 (c : Dev nD) : Valuation τ sig (Elt F) := Function.update (U3 m c) main_v24 ((R2.dat (rd (U3 m)) c).arrAt 2 cfg2.N)
def U5 (c : Dev nD) : Valuation τ sig (Elt F) :=
  Function.update (Function.update (U4 m c) main_v25_0 ((R3.dat (rd (U4 m)) c).arrAt 3 cfg3.N)) main_v25_1 ((R3.dat (rd (U4 m)) c).arrAt 4 cfg3.N)
def U6 (c : Dev nD) : Valuation τ sig (Elt F) := StableHlo.after hostOps4 (U5 m c)
def U7 (c : Dev nD) : Valuation τ sig (Elt F) := Function.update (U6 m c) main_v28 ((R4.dat (rd (U6 m)) c).arrAt 5 cfg4.N)

theorem U2_self (c : Dev nD) : U2 m c main_v22 = (R0.dat (rd (U1 m)) c).arrAt 2 cfg0.N := Function.update_self _ _ _
theorem U2_of (c : Dev nD) (r : Ref sig .tc) (h : r ≠ main_v22) : U2 m c r = U1 m c r :=
  Function.update_of_ne (StableHlo.devRef_ne_of_ne h) _ _
theorem U3_self (c : Dev nD) : U3 m c main_v23 = (R1.dat (rd (U2 m)) c).arrAt 2 cfg1.N := Function.update_self _ _ _
theorem U3_of (c : Dev nD) (r : Ref sig .tc) (h : r ≠ main_v23) : U3 m c r = U2 m c r :=
  Function.update_of_ne (StableHlo.devRef_ne_of_ne h) _ _
theorem U4_self (c : Dev nD) : U4 m c main_v24 = (R2.dat (rd (U3 m)) c).arrAt 2 cfg2.N := Function.update_self _ _ _
theorem U4_of (c : Dev nD) (r : Ref sig .tc) (h : r ≠ main_v24) : U4 m c r = U3 m c r :=
  Function.update_of_ne (StableHlo.devRef_ne_of_ne h) _ _
theorem U5_self1 (c : Dev nD) : U5 m c main_v25_1 = (R3.dat (rd (U4 m)) c).arrAt 4 cfg3.N := Function.update_self _ _ _
theorem U5_self0 (c : Dev nD) : U5 m c main_v25_0 = (R3.dat (rd (U4 m)) c).arrAt 3 cfg3.N :=
  (Function.update_of_ne (StableHlo.devRef_ne_of_ne (by decide)) _ _).trans (Function.update_self _ _ _)
theorem U5_of (c : Dev nD) (r : Ref sig .tc) (h0 : r ≠ main_v25_0) (h1 : r ≠ main_v25_1) : U5 m c r = U4 m c r :=
  (Function.update_of_ne (StableHlo.devRef_ne_of_ne h1) _ _).trans (Function.update_of_ne (StableHlo.devRef_ne_of_ne h0) _ _)
theorem U7_self (c : Dev nD) : U7 m c main_v28 = (R4.dat (rd (U6 m)) c).arrAt 5 cfg4.N := Function.update_self _ _ _
theorem U7_of (c : Dev nD) (r : Ref sig .tc) (h : r ≠ main_v28) : U7 m c r = U6 m c r :=
  Function.update_of_ne (StableHlo.devRef_ne_of_ne h) _ _

def outs : Outs (F := F) := fun J r c =>
  match J with
  | 2 => U2 m c r
  | 3 => U3 m c r
  | 4 => U4 m c r
  | 5 => U5 m c r
  | 7 => U7 m c r
  | _ => U1 m c r

-- The generated valuations, read at these results, are the ones above.
theorem V2_eq (c : Dev nD) : V2 m (outs m) c = U2 m c := by
  show Function.update (V1 m c) main_v22 (U2 m c main_v22) = U2 m c
  rw [U2_self]; rfl
theorem V3_eq (c : Dev nD) : V3 m (outs m) c = U3 m c := by
  show Function.update (V2 m (outs m) c) main_v23 (U3 m c main_v23) = U3 m c
  rw [V2_eq, U3_self]; rfl
theorem V4_eq (c : Dev nD) : V4 m (outs m) c = U4 m c := by
  show Function.update (V3 m (outs m) c) main_v24 (U4 m c main_v24) = U4 m c
  rw [V3_eq, U4_self]; rfl
theorem V5_eq (c : Dev nD) : V5 m (outs m) c = U5 m c := by
  show Function.update (Function.update (V4 m (outs m) c) main_v25_0 (U5 m c main_v25_0)) main_v25_1 (U5 m c main_v25_1) = U5 m c
  rw [V4_eq, U5_self0, U5_self1]; rfl
theorem V6_eq (c : Dev nD) : V6 m (outs m) c = U6 m c := by
  show StableHlo.after hostOps4 (V5 m (outs m) c) = U6 m c
  rw [V5_eq]; rfl
theorem V7_eq (c : Dev nD) : V7 m (outs m) c = U7 m c := by
  show Function.update (V6 m (outs m) c) main_v28 (U7 m c main_v28) = U7 m c
  rw [V6_eq, U7_self]; rfl

def pdats : (p : Fin 5) → (c : Dev nD) → Dat τ (Elt F) Unit ℕ (UR sig nD τ) ℕ (cfgs p) c
  | ⟨0, _⟩ => R0.dat (rd (U1 m))
  | ⟨1, _⟩ => R1.dat (rd (U2 m))
  | ⟨2, _⟩ => R2.dat (rd (U3 m))
  | ⟨3, _⟩ => R3.dat (rd (U4 m))
  | ⟨4, _⟩ => R4.dat (rd (U6 m))

abbrev L₀ : GSem nD τ sig → Finset Unit := fun _ => ∅
abbrev lv₀ : GSem nD τ sig → Unit → ℕ := fun _ _ => 0

abbrev ride (c : Dev nD) : sProp 𝕄 := Pipeline.ClassA.rides (U' := UR sig nD τ) c

theorem hpref (p : Fin 5) (c : Dev nD) :
    (BI.emp : sProp 𝕄) ⊢ Pipeline.prefHeld (pcfgs (F := F) p).pre c (fun _ => fullShare) (adm (F := F) p).1 := by
  unfold Pipeline.prefHeld
  rw [show (Finset.univ : Finset (Fin 0)) = ∅ from rfl, BI.bigSep_empty]

set_option backward.isDefEq.respectTransparency.types false in
def reg0 : RegionSeg (pcfgs (F := F)) adm (pdats m) () defs₀ Variants.none L₀ lv₀ 0 :=
  Pipeline.ClassA.region (U' := UR sig nD τ) (pcfgs (F := F)) adm (pdats m) defs₀ Variants.none L₀ lv₀ 0 launch0.toP
    (R0.body_obligation (rd (U1 m))) (R0.q_eq (rd (U1 m))) (R0.owed_eq (rd (U1 m))) (R0.recorded_eq (rd (U1 m)))
    (R0.hin (rd (U1 m))) (R0.hout (rd (U1 m))) (hpref 0) (U1 m) (U2 m) (R0.A_eq (rd (U1 m)))
    (fun c w hw => by
      obtain rfl := (by decide : ∀ w : Fin cfg0.W, (cfg0.win w).isOut = true → w = 2) w hw
      exact (U2_self m c).symm)
    (fun c b hb => U2_of m c b (hb 2 rfl))

set_option backward.isDefEq.respectTransparency.types false in
def reg1 : RegionSeg (pcfgs (F := F)) adm (pdats m) () defs₀ Variants.none L₀ lv₀ 1 :=
  Pipeline.ClassA.region (U' := UR sig nD τ) (pcfgs (F := F)) adm (pdats m) defs₀ Variants.none L₀ lv₀ 1 launch1.toP
    (R1.body_obligation (rd (U2 m))) (R1.q_eq (rd (U2 m))) (R1.owed_eq (rd (U2 m))) (R1.recorded_eq (rd (U2 m)))
    (R1.hin (rd (U2 m))) (R1.hout (rd (U2 m))) (hpref 1) (U2 m) (U3 m) (R1.A_eq (rd (U2 m)))
    (fun c w hw => by
      obtain rfl := (by decide : ∀ w : Fin cfg1.W, (cfg1.win w).isOut = true → w = 2) w hw
      exact (U3_self m c).symm)
    (fun c b hb => U3_of m c b (hb 2 rfl))

set_option backward.isDefEq.respectTransparency.types false in
def reg2 : RegionSeg (pcfgs (F := F)) adm (pdats m) () defs₀ Variants.none L₀ lv₀ 2 :=
  Pipeline.ClassA.region (U' := UR sig nD τ) (pcfgs (F := F)) adm (pdats m) defs₀ Variants.none L₀ lv₀ 2 launch2.toP
    (R2.body_obligation (rd (U3 m))) (R2.q_eq (rd (U3 m))) (R2.owed_eq (rd (U3 m))) (R2.recorded_eq (rd (U3 m)))
    (R2.hin (rd (U3 m))) (R2.hout (rd (U3 m))) (hpref 2) (U3 m) (U4 m) (R2.A_eq (rd (U3 m)))
    (fun c w hw => by
      obtain rfl := (by decide : ∀ w : Fin cfg2.W, (cfg2.win w).isOut = true → w = 2) w hw
      exact (U4_self m c).symm)
    (fun c b hb => U4_of m c b (hb 2 rfl))

set_option backward.isDefEq.respectTransparency.types false in
def reg3 : RegionSeg (pcfgs (F := F)) adm (pdats m) () defs₀ Variants.none L₀ lv₀ 3 :=
  Pipeline.ClassA.region (U' := UR sig nD τ) (pcfgs (F := F)) adm (pdats m) defs₀ Variants.none L₀ lv₀ 3 launch3.toP
    (R3.body_obligation (rd (U4 m))) (R3.q_eq (rd (U4 m))) (R3.owed_eq (rd (U4 m))) (R3.recorded_eq (rd (U4 m)))
    (R3.hin (rd (U4 m))) (R3.hout (rd (U4 m))) (hpref 3) (U4 m) (U5 m) (R3.A_eq (rd (U4 m)))
    (fun c w hw => by
      rcases (by decide : ∀ w : Fin cfg3.W, (cfg3.win w).isOut = true → w = 3 ∨ w = 4) w hw with rfl | rfl
      · exact (U5_self0 m c).symm
      · exact (U5_self1 m c).symm)
    (fun c b hb => U5_of m c b (hb 3 rfl) (hb 4 rfl))

set_option backward.isDefEq.respectTransparency.types false in
def reg4 : RegionSeg (pcfgs (F := F)) adm (pdats m) () defs₀ Variants.none L₀ lv₀ 4 :=
  Pipeline.ClassA.region (U' := UR sig nD τ) (pcfgs (F := F)) adm (pdats m) defs₀ Variants.none L₀ lv₀ 4 launch4.toP
    (R4.body_obligation (rd (U6 m))) (R4.q_eq (rd (U6 m))) (R4.owed_eq (rd (U6 m))) (R4.recorded_eq (rd (U6 m)))
    (R4.hin (rd (U6 m))) (R4.hout (rd (U6 m))) (hpref 4) (U6 m) (U7 m) (R4.A_eq (rd (U6 m)))
    (fun c w hw => by
      obtain rfl := (by decide : ∀ w : Fin cfg4.W, (cfg4.win w).isOut = true → w = 5) w hw
      exact (U7_self m c).symm)
    (fun c b hb => U7_of m c b (hb 5 rfl))

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (fun c => ride (F := F) c) : sProp 𝕄) := by
  refine Pipeline.initEach L₀ lv₀ fun c => ?_
  unfold ride Pipeline.ClassA.rides
  iintro ⟨⟨-, HO, -, Hp, -⟩, -⟩
  imodintro
  isplitl [Hp]; · iexists _; iexact Hp
  iexists ∅; iexact HO

theorem hE5 (c : Dev nD) : ride (F := F) c ⊢ (iprop(∃ W, owes (c : Thread nD τ) (0 : CellTallies nD τ sig Unit) W) : sProp 𝕄) := by
  unfold ride Pipeline.ClassA.rides
  iintro ⟨-, H⟩; iexact H

theorem enter (c : Dev nD) (W W' : Valuation τ sig (Elt F)) (h : W = W') :
    iprop(StableHlo.held (c : Thread nD τ) (Pipeline.ucRefs τ sig) W ∗ ride (F := F) c) ⊢ Pipeline.ClassA.between (U' := UR sig nD τ) c W' :=
  h ▸ .rfl
theorem leave (c : Dev nD) (W W' : Valuation τ sig (Elt F)) (h : W' = W) :
    Pipeline.ClassA.between (U' := UR sig nD τ) c W ⊢ iprop(StableHlo.held (c : Thread nD τ) (Pipeline.ucRefs τ sig) W' ∗ ride (F := F) c) :=
  h ▸ .rfl

set_option backward.isDefEq.respectTransparency.types false in
-- Every argument array ends at its launch contents.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ (sig := sig) (nD := nD) (τ := τ)) () Variants.none L₀ lv₀ (fun _ _ => rfl) ρ (outs m) (pdats m)
    (0 : Dev nD → CellTallies nD τ sig Unit) (fun _ => (BI.emp : sProp 𝕄)) u₀ hu₀ (fun _ c => ride (F := F) c) (hE0 ρ) hE5
    (reg0 m) (fun c => enter c _ _ rfl) (fun c => leave c _ _ (V2_eq m c))
    (reg1 m) (fun c => enter c _ _ (V2_eq m c)) (fun c => leave c _ _ (V3_eq m c))
    (reg2 m) (fun c => enter c _ _ (V3_eq m c)) (fun c => leave c _ _ (V4_eq m c))
    (reg3 m) (fun c => enter c _ _ (V4_eq m c)) (fun c => leave c _ _ (V5_eq m c))
    (reg4 m) (fun c => enter c _ _ (V6_eq m c)) (fun c => leave c _ _ (V7_eq m c))

end Cert.KernelIdeal.Asm

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (M N : Nat) : Type := (⟨2, ![M, N]⟩ : Shape).Idx → EReal

-- Every product of the network contracts the last axis of both factors: row p of a against row q of b.
def dotRows {M N K : Nat} (a : Mat M K) (b : Mat N K) (p : Fin M) (q : Fin N) : EReal :=
  ∑ k : Fin K, a (ix2 p k) * b (ix2 q k)

def mmT {M N K : Nat} (a : Mat M K) (b : Mat N K) : Mat M N := fun j => dotRows a b (j 0) (j 1)

theorem mmT_apply {M N K : Nat} (a : Mat M K) (b : Mat N K) (p : Fin M) (q : Fin N) :
    mmT a b (ix2 p q) = ∑ k : Fin K, a (ix2 p k) * b (ix2 q k) := rfl

def relu {M N : Nat} (a : Mat M N) : Mat M N := fun j => max (a j) 0

theorem relu_apply {M N : Nat} (a : Mat M N) (j : (⟨2, ![M, N]⟩ : Shape).Idx) : relu a j = max (a j) 0 := rfl

-- The number of columns (1024) and the constant added to the variance, as the words both programs print.
def cols : EReal := Ideal.ofBits .f32 0x44800000#32

def eps : EReal := Ideal.ofBits .f32 0x3727C5AC#32

def rowMean {M : Nat} (z : Mat M 1024) (r : Fin M) : EReal := Ideal.div (∑ k : Fin 1024, z (ix2 r k)) cols

def centered {M : Nat} (z : Mat M 1024) : Mat M 1024 := fun j => z j - rowMean z (j 0)

def rowVar {M : Nat} (z : Mat M 1024) (r : Fin M) : EReal :=
  Ideal.div (∑ k : Fin 1024, centered z (ix2 r k) * centered z (ix2 r k)) cols

-- The layer normalisation, row by row, with gain g and shift b (each one row of 1024 columns).
def layerNorm {M : Nat} (z : Mat M 1024) (g b : Mat 1 1024) : Mat M 1024 :=
  fun j => centered z j * Ideal.rsqrt (rowVar z (j 0) + eps) * g (ix2 0 (j 1)) + b (ix2 0 (j 1))

def add3 {M N : Nat} (u v w : Mat M N) : Mat M N := fun j => u j + v j + w j

-- The network on the 32768 rows of the flattened input.
def net (x : Mat 32768 1024) (wl : Mat 4096 1024) (ws1 ws2 : Mat 1024 1024) (wc1 : Mat 4096 4096) (wc2 : Mat 1024 4096)
    (g b : Mat 1 1024) : Mat 32768 1024 :=
  layerNorm (add3 (mmT (relu (mmT (relu (mmT x wl)) wc1)) wc2) (mmT x ws1) (mmT x ws2)) g b

end Cert.Spec

end
-- ==== Proof.Layout.lean ====
import proofs.«105382_j64407329571549_1_alg».proof.Proof.Spec

noncomputable section

namespace Cert.Spec

open Idealize.ShloMosaic Idealize.ShloMosaic.ValueIdx

abbrev Cube (N : Nat) : Type := (⟨3, ![8, 4096, N]⟩ : Shape).Idx → EReal

abbrev Vec1 (N : Nat) : Type := (⟨1, ![N]⟩ : Shape).Idx → EReal

-- Row (b, s) of the cube of 8 × 4096 rows is flat row 4096·b + s.
def rowIx (b : Fin 8) (s : Fin 4096) : Fin 32768 := ⟨b.val * 4096 + s.val, by omega⟩
def rowB (r : Fin 32768) : Fin 8 := ⟨r.val / 4096, by omega⟩
def rowS (r : Fin 32768) : Fin 4096 := ⟨r.val % 4096, Nat.mod_lt _ (by norm_num)⟩

theorem rowIx_rowB_rowS (r : Fin 32768) : rowIx (rowB r) (rowS r) = r :=
  Fin.ext (show r.val / 4096 * 4096 + r.val % 4096 = r.val by omega)
theorem rowB_rowIx (b : Fin 8) (s : Fin 4096) : rowB (rowIx b s) = b :=
  Fin.ext (show (b.val * 4096 + s.val) / 4096 = b.val by omega)
theorem rowS_rowIx (b : Fin 8) (s : Fin 4096) : rowS (rowIx b s) = s :=
  Fin.ext (show (b.val * 4096 + s.val) % 4096 = s.val by omega)

def flat {N : Nat} (x : Cube N) : Mat 32768 N := fun j => x (ix3 (rowB (j 0)) (rowS (j 0)) (j 1))
def unflat {N : Nat} (y : Mat 32768 N) : Cube N := fun i => y (ix2 (rowIx (i 0) (i 1)) (i 2))

theorem flat_apply {N : Nat} (x : Cube N) (r : Fin 32768) (q : Fin N) : flat x (ix2 r q) = x (ix3 (rowB r) (rowS r) q) := rfl
theorem unflat_apply {N : Nat} (y : Mat 32768 N) (b : Fin 8) (s : Fin 4096) (q : Fin N) :
    unflat y (ix3 b s q) = y (ix2 (rowIx b s) q) := rfl

def row {N : Nat} (g : Vec1 N) : Mat 1 N := fun j => g (ix1 (j 1))

def blk128 {n : Nat} (a : Fin (n * 128)) : Fin n := ⟨a.val / 128, by have := a.isLt; omega⟩
theorem blk128_val {n : Nat} (a : Fin (n * 128)) : (blk128 a).val = a.val / 128 := rfl

-- A weight of n × 8 blocks of 128 × 128 entries, scaled block by block: entry (o, h) times the scale of block (o / 128, h / 128).
def deq {n : Nat} (w : Mat (n * 128) 1024) (s : Mat n 8) : Mat (n * 128) 1024 :=
  fun j => w j * s (ix2 (blk128 (j 0)) (blk128 (n := 8) (j 1)))

theorem deq_apply {n : Nat} (w : Mat (n * 128) 1024) (s : Mat n 8) (o : Fin (n * 128)) (h : Fin 1024) :
    deq w s (ix2 o h) = w (ix2 o h) * s (ix2 (blk128 o) (blk128 (n := 8) h)) := rfl

-- The result both programs end with, as one function of the eleven argument arrays.
def result (x : Cube 1024) (wLarge : Mat 4096 1024) (wS1 wS2 : Mat 1024 1024) (wC1 : Mat 4096 4096) (wC2 : Mat 1024 4096)
    (gamma beta : Vec1 1024) (sLarge : Mat 32 8) (sS1 sS2 : Mat 8 8) : Cube 1024 :=
  unflat (net (flat x) (deq (n := 32) wLarge sLarge) (deq (n := 8) wS1 sS1) (deq (n := 8) wS2 sS2) wC1 wC2 (row gamma) (row beta))

end Cert.Spec

end
-- ==== Proof.LayoutOps.lean ====
import proofs.«105382_j64407329571549_1_alg».proof.Proof.Layout
import Idealize.ShloMosaic.PureOps.Ideal
import Idealize.ShloMosaic.Lib.ValueIdx
import Idealize.ShloMosaic.Lib.Pipeline.Value
import Idealize.ShloMosaic.Lib.ValueLayout

noncomputable section

namespace Cert.Spec

open Idealize.ShloMosaic Idealize.ShloMosaic.ValueIdx

-- The n × 8 scales spread over n·128 × 1024 entries. From the outside in: the last reshape reads (o, h / 128, h % 128), the broadcast
-- before it (o, h / 128), the first reshape (o / 128, o % 128, h / 128), the first broadcast the scale at (o / 128, h / 128).
theorem spread_apply {α : Type} {n : Nat} (s : (⟨2, ![n, 8]⟩ : Shape).Idx → α)
    (h1 : (⟨2, ![n, 8]⟩ : Shape).BroadcastsInDim ⟨3, ![n, 128, 8]⟩ ![0, 2])
    (h2 : (⟨3, ![n, 128, 8]⟩ : Shape).ShapeCasts ⟨2, ![n * 128, 8]⟩)
    (h3 : (⟨2, ![n * 128, 8]⟩ : Shape).BroadcastsInDim ⟨3, ![n * 128, 8, 128]⟩ ![0, 1])
    (h4 : (⟨3, ![n * 128, 8, 128]⟩ : Shape).ShapeCasts ⟨2, ![n * 128, 1024]⟩)
    (j : (⟨2, ![n * 128, 1024]⟩ : Shape).Idx) :
    shapeCast ⟨2, ![n * 128, 1024]⟩ (broadcastInDim ⟨3, ![n * 128, 8, 128]⟩ ![0, 1] h3
        (shapeCast ⟨2, ![n * 128, 8]⟩ (broadcastInDim ⟨3, ![n, 128, 8]⟩ ![0, 2] h1 s) h2)) h4 j
      = s (ix2 (blk128 (j 0)) (blk128 (n := 8) (j 1))) := by
  have ho : (j 0).val < n * 128 := idx2_lt0 j
  have hh : (j 1).val < 1024 := idx2_lt1 j
  refine (shapeCast_apply _ h4 j
    (ix3 (j 0) (⟨(j 1).val / 128, by omega⟩ : Fin 8) (⟨(j 1).val % 128, by omega⟩ : Fin 128)) ?_).trans ?_
  · rw [Shape.rowMajor_val_three, Shape.rowMajor_val_two]
    show ((j 0).val * 8 + (j 1).val / 128) * 128 + (j 1).val % 128 = (j 0).val * 1024 + (j 1).val
    omega
  refine (broadcastInDim_apply _ h3 _ _ (ix2 (j 0) (⟨(j 1).val / 128, by omega⟩ : Fin 8)) ?_).trans ?_
  · intro a
    match a with
    | ⟨0, _⟩ => exact (if_neg (show n * 128 ≠ 1 by omega)).symm
    | ⟨1, _⟩ => rfl
  refine (shapeCast_apply _ h2 _
    (ix3 (⟨(j 0).val / 128, by omega⟩ : Fin n) (⟨(j 0).val % 128, by omega⟩ : Fin 128)
      (⟨(j 1).val / 128, by omega⟩ : Fin 8)) ?_).trans ?_
  · rw [Shape.rowMajor_val_three, Shape.rowMajor_val_two]
    show ((j 0).val / 128 * 128 + (j 0).val % 128) * 8 + (j 1).val / 128 = (j 0).val * 8 + (j 1).val / 128
    omega
  refine broadcastInDim_apply _ h1 _ _ _ ?_
  intro a
  match a with
  | ⟨0, _⟩ => show (j 0).val / 128 = if n = 1 then 0 else (j 0).val / 128; split <;> omega
  | ⟨1, _⟩ => rfl

theorem deq_ops {n : Nat} (w : FVec Ideal ⟨2, ![n * 128, 1024]⟩ .f32) (s : FVec Ideal ⟨2, ![n, 8]⟩ .f32)
    (h1 : (⟨2, ![n, 8]⟩ : Shape).BroadcastsInDim ⟨3, ![n, 128, 8]⟩ ![0, 2])
    (h2 : (⟨3, ![n, 128, 8]⟩ : Shape).ShapeCasts ⟨2, ![n * 128, 8]⟩)
    (h3 : (⟨2, ![n * 128, 8]⟩ : Shape).BroadcastsInDim ⟨3, ![n * 128, 8, 128]⟩ ![0, 1])
    (h4 : (⟨3, ![n * 128, 8, 128]⟩ : Shape).ShapeCasts ⟨2, ![n * 128, 1024]⟩) :
    mulf w (shapeCast ⟨2, ![n * 128, 1024]⟩ (broadcastInDim ⟨3, ![n * 128, 8, 128]⟩ ![0, 1] h3
        (shapeCast ⟨2, ![n * 128, 8]⟩ (broadcastInDim ⟨3, ![n, 128, 8]⟩ ![0, 2] h1 s) h2)) h4)
      = deq w s := by
  funext j
  rw [mulf_apply, spread_apply s h1 h2 h3 h4 j]
  rfl

-- A reshape between the cube and its rows keeps the row-major order.
theorem flat_ops (x : (⟨3, ![8, 4096, 1024]⟩ : Shape).Idx → EReal)
    (h : (⟨3, ![8, 4096, 1024]⟩ : Shape).ShapeCasts ⟨2, ![32768, 1024]⟩) :
    shapeCast ⟨2, ![32768, 1024]⟩ x h = flat x := by
  funext j
  have hr : (j 0).val < 32768 := idx2_lt0 j
  refine shapeCast_apply x h j (ix3 (rowB (j 0)) (rowS (j 0)) (j 1)) ?_
  rw [Shape.rowMajor_val_three, Shape.rowMajor_val_two]
  show ((j 0).val / 4096 * 4096 + (j 0).val % 4096) * 1024 + (j 1).val = (j 0).val * 1024 + (j 1).val
  omega

theorem unflat_ops (y : (⟨2, ![32768, 1024]⟩ : Shape).Idx → EReal)
    (h : (⟨2, ![32768, 1024]⟩ : Shape).ShapeCasts ⟨3, ![8, 4096, 1024]⟩) :
    shapeCast ⟨3, ![8, 4096, 1024]⟩ y h = unflat y := by
  funext i
  refine shapeCast_apply y h i (ix2 (rowIx (i 0) (i 1)) (i 2)) ?_
  rw [Shape.rowMajor_val_three, Shape.rowMajor_val_two]
  rfl

theorem row_ops (g : (⟨1, ![1024]⟩ : Shape).Idx → EReal)
    (h : (⟨1, ![1024]⟩ : Shape).ShapeCasts ⟨2, ![1, 1024]⟩) :
    shapeCast ⟨2, ![1, 1024]⟩ g h = row g := by
  funext j
  obtain ⟨a, b, rfl⟩ : ∃ (a : Fin 1) (b : Fin 1024), j = ix2 a b := ⟨j 0, j 1, eq_ix2 j⟩
  exact shapeCast_a_1a_apply g h a b

end Cert.Spec

end
-- ==== Proof.KI.Host.lean ====
import proofs.«105382_j64407329571549_1_alg».proof.Proof.Gen.KernelIdeal.Regions
import proofs.«105382_j64407329571549_1_alg».proof.Proof.LayoutOps

noncomputable section

namespace Cert.KernelIdeal.HostGlue

open Cert.KernelIdeal Cert.KernelIdeal.Gen
open Idealize.ShloMosaic Idealize.ShloMosaic.TcCoe

variable (m : (ℓ : Loc nD τ sig) → Buf (Elt Ideal) ℓ) (outs : Outs (F := Ideal)) (c : Dev nD)

-- Each buffer the first host stretch wrote is the composition of the operations that wrote it, applied to the launch contents;
-- narrowing the float format is the identity on the extended reals.
theorem v21 : (V1 m c main_v21 : Cert.Spec.Mat 32768 1024)
    = Cert.Spec.flat (m ((c.tc : Thread nD τ).loc main_arg0) : Cert.Spec.Cube 1024) := by
  dsimp only [V1, hostOps0]; after_results
  exact Cert.Spec.flat_ops _ _

theorem v5 : (V1 m c main_v5 : Cert.Spec.Mat 4096 1024)
    = Cert.Spec.deq (n := 32) (m ((c.tc : Thread nD τ).loc main_arg1)) (m ((c.tc : Thread nD τ).loc main_arg8)) := by
  dsimp only [V1, hostOps0]; after_results
  exact Cert.Spec.deq_ops (n := 32) _ _ _ _ _ _

theorem v11 : (V1 m c main_v11 : Cert.Spec.Mat 1024 1024)
    = Cert.Spec.deq (n := 8) (m ((c.tc : Thread nD τ).loc main_arg2)) (m ((c.tc : Thread nD τ).loc main_arg9)) := by
  dsimp only [V1, hostOps0]; after_results
  exact Cert.Spec.deq_ops (n := 8) _ _ _ _ _ _

theorem v17 : (V1 m c main_v17 : Cert.Spec.Mat 1024 1024)
    = Cert.Spec.deq (n := 8) (m ((c.tc : Thread nD τ).loc main_arg3)) (m ((c.tc : Thread nD τ).loc main_arg10)) := by
  dsimp only [V1, hostOps0]; after_results
  exact Cert.Spec.deq_ops (n := 8) _ _ _ _ _ _

theorem v18 : (V1 m c main_v18 : Cert.Spec.Mat 4096 4096) = m ((c.tc : Thread nD τ).loc main_arg4) := by
  dsimp only [V1, hostOps0]; after_results; rfl

theorem v19 : (V1 m c main_v19 : Cert.Spec.Mat 1024 4096) = m ((c.tc : Thread nD τ).loc main_arg5) := by
  dsimp only [V1, hostOps0]; after_results; rfl

-- No host operation and no region writes the gain or the shift before the last region.
theorem kept (r : Ref sig .tc) (h : r = main_arg6 ∨ r = main_arg7) : V5 m outs c r = m ((c.tc : Thread nD τ).loc r) := by
  rcases h with rfl | rfl <;>
    exact (V5_of m outs c _ (by decide)).trans <| (V4_of m outs c _ (by decide)).trans <| (V3_of m outs c _ (by decide)).trans <|
      (V2_of m outs c _ (by decide)).trans <| (V1_of m c _ (by decide)).trans rfl

theorem v26 : (V6 m outs c main_v26 : Cert.Spec.Mat 1 1024)
    = Cert.Spec.row (m ((c.tc : Thread nD τ).loc main_arg6) : Cert.Spec.Vec1 1024) := by
  dsimp only [V6, hostOps4]; after_results
  exact (Cert.Spec.row_ops (V5 m outs c main_arg6) _).trans (congrArg Cert.Spec.row (kept m outs c _ (.inl rfl)))

theorem v27 : (V6 m outs c main_v27 : Cert.Spec.Mat 1 1024)
    = Cert.Spec.row (m ((c.tc : Thread nD τ).loc main_arg7) : Cert.Spec.Vec1 1024) := by
  dsimp only [V6, hostOps4]; after_results
  exact (Cert.Spec.row_ops (V5 m outs c main_arg7) _).trans (congrArg Cert.Spec.row (kept m outs c _ (.inr rfl)))

theorem v29 : (V8 m outs c main_v29 : Cert.Spec.Cube 1024)
    = Cert.Spec.unflat (V7 m outs c main_v28 : Cert.Spec.Mat 32768 1024) := by
  dsimp only [V8, hostOps5]; after_results
  exact Cert.Spec.unflat_ops _ _

end Cert.KernelIdeal.HostGlue

end
-- ==== Proof.LibDotRows.lean ====
import Idealize.ShloMosaic.PureOps.Ideal.Laws
import Idealize.ShloMosaic.Lib.ValueIdx

namespace Idealize.ShloMosaic.Ideal

open Idealize.ShloMosaic.ValueIdx

/-- A matrix product that contracts the last axis of both factors, into a zero accumulator, on the extended reals:
    entry (p, q) is the sum over k of a[p, k] · b[q, k]. -/
theorem matmul_rows_zero_apply {M N K : Nat} {φ₁ φ₂ : FTy} (D : DotDims ⟨2, ![M, K]⟩ ⟨2, ![N, K]⟩ ⟨2, ![M, N]⟩)
    (hr : D.contr.rank = 1) (hs : D.contr.size ⟨0, by omega⟩ = K) (hl : D.lhsContracting = [1]) (hrc : D.rhsContracting = [1])
    (hl0 : ∀ j k, (D.lhsIdx j k 0).val = (j 0).val) (hr0 : ∀ j k, (D.rhsIdx j k 0).val = (j 1).val)
    (a : FVec Ideal ⟨2, ![M, K]⟩ φ₁) (b : FVec Ideal ⟨2, ![N, K]⟩ φ₂) (p : Fin M) (q : Fin N) :
    FloatOps.matmul D none a b (constant ⟨2, ![M, N]⟩ .f32 0x00000000#32) (ix2 p q) = ∑ k : Fin K, a (ix2 p k) * b (ix2 q k) := by
  rw [matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (D.lhsIdx_val_of_single hl _ _).trans hk)
  have er : D.rhsIdx (ix2 p q) ((contrEquiv1 D K hr hs).symm k) = ix2 q k := funext fun ax => Fin.ext (by
    match ax with
    | ⟨0, _⟩ => exact hr0 _ _
    | ⟨1, _⟩ => exact (D.rhsIdx_val_of_single hrc _ _).trans hk)
  rw [el, er]

end Idealize.ShloMosaic.Ideal
-- ==== Proof.KI.P0.lean ====
import proofs.«105382_j64407329571549_1_alg».proof.Proof.Gen.KernelIdeal.Skeleton
import proofs.«105382_j64407329571549_1_alg».proof.Proof.LibDotRows
import Idealize.ShloMosaic.Lib.Pipeline.Value

noncomputable section

namespace Cert.KernelIdeal.R0

open Cert.KernelIdeal Cert.KernelIdeal.Gen
open Idealize.ShloMosaic Idealize.ShloMosaic.ValueIdx

-- On the extended reals the zero word is 0 and a change of format is the identity; the product's entry is the sum over the common axis.
theorem body_apply (a b : Vec Ideal S1024x1024 .bf16) (p q : Fin 1024) :
    (k0_pay3 (F := Ideal) (k0_pay2 (F := Ideal) a b (k0_pay1 (F := Ideal)))) (ix2 p q)
      = max (∑ k : Fin 1024, a (ix2 p k) * b (ix2 q k)) 0 := by
  unfold k0_pay3 k0_pay2 k0_pay1
  simp only [shapeCast_self]
  show max (Ideal.ofBits .f32 0x00000000#32 + _) (Ideal.ofBits .f32 0x00000000#32) = _
  rw [Ideal.ofBits_zero_f32, zero_add]
  exact congrArg (max · 0) (Ideal.matmul_rows_zero_apply dot_S1024x1024_S1024x1024_S1024x1024_1_1_0_0_n_n rfl rfl rfl rfl (fun _ _ => rfl) (fun _ _ => rfl) a b p q)

end Cert.KernelIdeal.R0

end
-- ==== Proof.KI.V0.lean ====
import proofs.«105382_j64407329571549_1_alg».proof.Proof.KI.R0
import proofs.«105382_j64407329571549_1_alg».proof.Proof.KI.P0
import proofs.«105382_j64407329571549_1_alg».proof.Proof.Spec

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

-- The point t = 4 i + j sees block row i of the activations, block row j of the weights and block (i, j) of the result.
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

-- Entry (p, q) of the block a point writes back is the rectified product's entry in the point's block row and block column.
theorem flushed_eq (c : Dev nD) (t : Fin cfg0.N) :
    (dat V c).flushed 2 t = ((cfg0.win 2).blk t).view.read (Elt Ideal)
      (Cert.Spec.relu (Cert.Spec.mmT (V c main_v21 : Cert.Spec.Mat 32768 1024) (V c main_v5 : Cert.Spec.Mat 4096 1024))) := by
  obtain ⟨e0, e1, e2, e3, e4, e5⟩ := idx_facts t
  funext y
  obtain ⟨p, q, rfl⟩ : ∃ (p q : Fin 1024), y = ix2 p q := ⟨y 0, y 1, eq_ix2 y⟩
  show k0_pay3 (k0_pay2 (iblk V c 0 t) (iblk V c 1 t) (k0_pay1 (F := Ideal))) (ix2 p q)
    = Cert.Spec.relu (Cert.Spec.mmT _ _) (((cfg0.win 2).blk t).view.emb (ix2 p q))
  rw [body_apply, Cert.Spec.relu_apply]
  unfold Cert.Spec.mmT Cert.Spec.dotRows iblk
  refine congrArg (max · 0) (Finset.sum_congr rfl fun k _ => ?_)
  rw [View.read_apply, View.read_apply]
  congr 1
  · show V c main_v21 _ = V c main_v21 _
    refine congrArg (V c main_v21) (funext fun a => Fin.ext ?_)
    match a with
    | ⟨0, _⟩ => show win0_0.index t 0 * 1024 + 1 * p.val = win0_2.index t 0 * 1024 + 1 * p.val; rw [e0, e4]
    | ⟨1, _⟩ => show win0_0.index t 1 * 1024 + 1 * k.val = k.val; rw [e1]; omega
  · show V c main_v5 _ = V c main_v5 _
    refine congrArg (V c main_v5) (funext fun a => Fin.ext ?_)
    match a with
    | ⟨0, _⟩ => show win0_1.index t 0 * 1024 + 1 * q.val = win0_2.index t 1 * 1024 + 1 * q.val; rw [e2, e5]
    | ⟨1, _⟩ => show win0_1.index t 1 * 1024 + 1 * k.val = k.val; rw [e3]; omega

-- Every entry (r, s) of the result lies in the block of the point 4 (r / 1024) + s / 1024.
theorem covered (i : S32768x4096.Idx) :
    ∃ t : Fin cfg0.N, (cfg0.win 2).flush t = true ∧ i ∈ ((cfg0.win 2).blk t).view.set := by
  have h0 := idx2_lt0 i
  have h1 := idx2_lt1 i
  have hN : cfg0.N = 128 := N_0
  obtain ⟨t, ht⟩ : ∃ t : Fin cfg0.N, t.val = (i 0).val / 1024 * 4 + (i 1).val / 1024 := ⟨⟨_, by omega⟩, rfl⟩
  obtain ⟨-, -, -, -, e4, e5⟩ := idx_facts t
  refine ⟨t, flush0_2 t, ?_⟩
  show i ∈ ((View.whole main_v22).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e4]; omega
  | ⟨1, _⟩ => show win0_2.index t 1 * 1024 ≤ (i 1).val ∧ (i 1).val < win0_2.index t 1 * 1024 + 1024; rw [e5]; omega

theorem final (c : Dev nD) :
    ((dat (F := Ideal) V c).arrAt 2 cfg0.N : Cert.Spec.Mat 32768 4096)
      = Cert.Spec.relu (Cert.Spec.mmT (V c main_v21 : Cert.Spec.Mat 32768 1024) (V c main_v5 : Cert.Spec.Mat 4096 1024)) :=
  (dat V c).arrAt_eq_of_cover 2 _ (fun t _ => flushed_eq V c t) covered

end Cert.KernelIdeal.R0

end
-- ==== Proof.KI.P1.lean ====
import proofs.«105382_j64407329571549_1_alg».proof.Proof.Gen.KernelIdeal.Skeleton
import proofs.«105382_j64407329571549_1_alg».proof.Proof.LibDotRows
import Idealize.ShloMosaic.PureOps.Ideal.Laws
import Idealize.ShloMosaic.Lib.ValueIdx
import Idealize.ShloMosaic.Lib.Pipeline.Value

noncomputable section

namespace Cert.KernelIdeal.R1

open Cert.KernelIdeal Cert.KernelIdeal.Gen
open Idealize.ShloMosaic Idealize.ShloMosaic.ValueIdx

theorem pay1_apply (j : S1024x1024.Idx) : (k1_pay1 (F := Ideal)) j = 0 := by
  unfold k1_pay1
  rw [shapeCast_self]
  exact Ideal.ofBits_zero_f32

-- Both operands are contracted along their last axis: the update adds row p of `a` against row q of `b`.
theorem pay2_apply (a b : Vec Ideal S1024x2048 .bf16) (acc : Vec Ideal S1024x1024 .f32) (p q : Fin 1024) :
    (k1_pay2 (F := Ideal) a b acc) (ix2 p q) = acc (ix2 p q) + ∑ k : Fin 2048, a (ix2 p k) * b (ix2 q k) := by
  unfold k1_pay2
  simp only [shapeCast_self]
  exact congrArg (acc (ix2 p q) + ·)
    (Ideal.matmul_rows_zero_apply dot_S1024x2048_S1024x2048_S1024x1024_1_1_0_0_n_n rfl rfl rfl rfl (fun _ _ => rfl) (fun _ _ => rfl) a b p q)

theorem pay3_apply (acc : Vec Ideal S1024x1024 .f32) (j : S1024x1024.Idx) : (k1_pay3 (F := Ideal) acc) j = max (acc j) 0 := by
  unfold k1_pay3
  show max (acc j) (Ideal.ofBits .f32 0x00000000#32) = _
  rw [Ideal.ofBits_zero_f32]

end Cert.KernelIdeal.R1

end
-- ==== Proof.KI.V1.lean ====
import proofs.«105382_j64407329571549_1_alg».proof.Proof.KI.R1
import proofs.«105382_j64407329571549_1_alg».proof.Proof.KI.P1
import proofs.«105382_j64407329571549_1_alg».proof.Proof.Spec
import Idealize.ShloMosaic.Lib.Pipeline.Value
import Idealize.ShloMosaic.Lib.Tactic
import Mathlib.Algebra.BigOperators.Fin

noncomputable section

namespace Cert.KernelIdeal.R1

open Cert.KernelIdeal Cert.KernelIdeal.Gen
open Idealize.ShloMosaic Idealize.ShloMosaic.TcCoe Idealize.SL.Sem Idealize.ShloMosaic.Tactic
open Idealize.ShloMosaic.ValueIdx
open Idealize.ShloMosaic.Pipeline (Dat)

variable (V : (c : Dev nD) → (b : Ref sig .tc) → Buf (Elt Ideal) ((c : Thread nD τ).loc b)) (c : Dev nD)

abbrev actArr : Cert.Spec.Mat 32768 4096 := V c main_v22
abbrev wtArr : Cert.Spec.Mat 4096 4096 := V c main_v18
abbrev actBlk (t : Fin cfg1.N) : Vec Ideal S1024x2048 .bf16 := inBlock V c 0 t
abbrev wtBlk (t : Fin cfg1.N) : Vec Ideal S1024x2048 .bf16 := inBlock V c 1 t
abbrev goalArr : Cert.Spec.Mat 32768 4096 := Cert.Spec.relu (Cert.Spec.mmT (actArr V c) (wtArr V c))

-- With t = (i·4 + j)·2 + k the three windows' blocks at point t are (i, k), (j, k) and (i, j).
theorem idx_facts : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = t.val / 8 ∧ win1_2.index t (1 : Fin 2) = t.val / 2 % 4 :=
  (by decide +kernel : ∀ t : Fin grid1.N, _)

-- An entry of an input's block is the array's entry at the block's offsets plus the entry's coordinates.
theorem blk_apply (t : Fin cfg1.N) (p q : Fin 1024) (x : Fin 2048) (R : Fin 32768) (C K : Fin 4096)
    (hR : R.val = t.val / 8 * 1024 + p.val) (hC : C.val = t.val / 2 % 4 * 1024 + q.val) (hK : K.val = t.val % 2 * 2048 + x.val) :
    actBlk V c t (ix2 p x) * wtBlk V c t (ix2 q x) = actArr V c (ix2 R K) * wtArr V c (ix2 C K) := by
  obtain ⟨e0, e1, e2, e3, -⟩ := idx_facts t
  congr 1 <;> refine (View.read_apply _ _).trans (congrArg (V c _) (funext fun a => Fin.ext ?_)) <;> fin_cases a
  · show win1_0.index t (0 : Fin 2) * 1024 + 1 * p.val = R.val; omega
  · show win1_0.index t (1 : Fin 2) * 2048 + 1 * x.val = K.val; omega
  · show win1_1.index t (0 : Fin 2) * 1024 + 1 * q.val = C.val; omega
  · show win1_1.index t (1 : Fin 2) * 2048 + 1 * x.val = K.val; omega

-- At an odd point the two partial products over zero are the two halves of the full row product.
theorem out_entry (t : Fin cfg1.N) (h1 : t.val % 2 = 1) (p q : Fin 1024) (R : Fin 32768) (C : Fin 4096)
    (hR : R.val = t.val / 8 * 1024 + p.val) (hC : C.val = t.val / 2 % 4 * 1024 + q.val) :
    (dat V c).after 2 t (ix2 p q) = goalArr V c (ix2 R C) := by
  have hp : t.val - 1 < cfg1.N := (Nat.sub_le _ _).trans_lt t.isLt
  show k1_pay3 (F := Ideal) (k1_pay2 (F := Ideal) _ _ (k1_pay2 (F := Ideal) _ _ _)) _ = max (Cert.Spec.mmT (actArr V c) (wtArr V c) (ix2 R C)) 0
  rw [pay3_apply, pay2_apply, pay2_apply, pay1_apply, zero_add, Cert.Spec.mmT_apply]
  congr 1
  rw [show (∑ k : Fin 4096, actArr V c (ix2 R k) * wtArr V c (ix2 C k)) = ∑ k : Fin (2048 + 2048), actArr V c (ix2 R k) * wtArr V c (ix2 C k) from rfl,
    Fin.sum_univ_add]
  congr 1 <;> refine Finset.sum_congr rfl fun x _ => ?_
  · exact blk_apply V c ⟨t.val - 1, hp⟩ p q x R C (Fin.castAdd 2048 x) (by show R.val = (t.val - 1) / 8 * 1024 + p.val; omega)
      (by show C.val = (t.val - 1) / 2 % 4 * 1024 + q.val; omega) (by show x.val = (t.val - 1) % 2 * 2048 + x.val; omega)
  · exact blk_apply V c t p q x R C (Fin.natAdd 2048 x) hR hC (by show 2048 + x.val = t.val % 2 * 2048 + x.val; omega)

theorem flushed_eq (t : Fin cfg1.N) (hf : (cfg1.win 2).flush t = true) :
    (dat (F := Ideal) V c).flushed 2 t = ((cfg1.win 2).blk t).view.read (Elt Ideal) (goalArr V c) := by
  obtain ⟨-, -, -, -, e4, e5⟩ := idx_facts t
  funext j
  show (dat V c).after 2 t j = goalArr V c (((cfg1.win 2).blk t).view.emb j)
  refine (congrArg _ (eq_ix2 j)).trans (Eq.trans ?_ (congrArg (goalArr V c) (eq_ix2 _).symm))
  exact out_entry V c t ((flush1_2 t).mp hf) (j 0) (j 1) _ _
    (by show win1_2.index t (0 : Fin 2) * 1024 + 1 * (j 0).val = t.val / 8 * 1024 + (j 0).val; omega)
    (by show win1_2.index t (1 : Fin 2) * 1024 + 1 * (j 1).val = t.val / 2 % 4 * 1024 + (j 1).val; omega)

-- An index (r, s) of the array is in the block of the odd point (r / 1024 · 4 + s / 1024) · 2 + 1.
theorem covered (i : S32768x4096.Idx) :
    ∃ t : Fin cfg1.N, (cfg1.win 2).flush t = true ∧ i ∈ ((cfg1.win 2).blk t).view.set := by
  have hi0 : (i 0).val < 32768 := (i 0).isLt
  have hi1 : (i 1).val < 4096 := (i 1).isLt
  have hN : cfg1.N = 256 := N_1
  obtain ⟨t, ht⟩ : ∃ t : Fin cfg1.N, t.val = ((i 0).val / 1024 * 4 + (i 1).val / 1024) * 2 + 1 :=
    ⟨⟨((i 0).val / 1024 * 4 + (i 1).val / 1024) * 2 + 1, by omega⟩, rfl⟩
  refine ⟨t, (flush1_2 t).mpr (by omega), ?_⟩
  obtain ⟨-, -, -, -, e4, e5⟩ := idx_facts t
  show i ∈ ((View.whole main_v23).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

theorem final (V : (c : Dev nD) → (b : Ref sig .tc) → Buf (Elt Ideal) ((c : Thread nD τ).loc b)) (c : Dev nD) :
    ((dat (F := Ideal) V c).arrAt 2 cfg1.N : Cert.Spec.Mat 32768 4096) = Cert.Spec.relu (Cert.Spec.mmT (V c main_v22 : Cert.Spec.Mat 32768 4096) (V c main_v18 : Cert.Spec.Mat 4096 4096)) :=
  (dat (F := Ideal) V c).arrAt_eq_of_cover 2 (goalArr V c) (flushed_eq V c) covered

end Cert.KernelIdeal.R1

end
-- ==== Proof.KI.P2.lean ====
import proofs.«105382_j64407329571549_1_alg».proof.Proof.Gen.KernelIdeal.Skeleton
import proofs.«105382_j64407329571549_1_alg».proof.Proof.LibDotRows
import Idealize.ShloMosaic.PureOps.Ideal.Laws
import Idealize.ShloMosaic.Lib.ValueIdx
import Idealize.ShloMosaic.Lib.Pipeline.Value

noncomputable section

namespace Cert.KernelIdeal.R2

open Cert.KernelIdeal Cert.KernelIdeal.Gen
open Idealize.ShloMosaic Idealize.ShloMosaic.ValueIdx
open scoped BigOperators

theorem pay1_apply (j : S1024x1024.Idx) : (k2_pay1 (F := Ideal)) j = 0 := by
  unfold k2_pay1
  simp only [shapeCast_self]
  exact Ideal.ofBits_zero_f32

-- One step adds to the accumulator the rows of a against the rows of b.
theorem pay2_apply (a b : Vec Ideal S1024x2048 .bf16) (acc : Vec Ideal S1024x1024 .f32) (p q : Fin 1024) :
    (k2_pay2 (F := Ideal) a b acc) (ix2 p q) = acc (ix2 p q) + ∑ k : Fin 2048, a (ix2 p k) * b (ix2 q k) := by
  unfold k2_pay2
  simp only [shapeCast_self]
  exact (addf_apply _ _ _).trans (congrArg (acc (ix2 p q) + ·)
    (Ideal.matmul_rows_zero_apply dot_S1024x2048_S1024x2048_S1024x1024_1_1_0_0_n_n rfl rfl rfl rfl (fun _ _ => rfl) (fun _ _ => rfl) a b p q))

theorem two_steps_apply (a b a' b' : Vec Ideal S1024x2048 .bf16) (p q : Fin 1024) :
    (k2_pay2 (F := Ideal) a' b' (k2_pay2 (F := Ideal) a b (k2_pay1 (F := Ideal)))) (ix2 p q)
      = ∑ k : Fin 2048, a (ix2 p k) * b (ix2 q k) + ∑ k : Fin 2048, a' (ix2 p k) * b' (ix2 q k) := by
  rw [pay2_apply, pay2_apply, pay1_apply, zero_add]

theorem sum_halves (f : Fin 4096 → EReal) :
    ∑ k : Fin 4096, f k
      = ∑ k : Fin 2048, f ⟨k.val, Nat.lt_of_lt_of_le k.isLt (by decide)⟩
        + ∑ k : Fin 2048, f ⟨2048 + k.val, by have := k.isLt; omega⟩ :=
  Fin.sum_univ_add (M := EReal) (a := 2048) (b := 2048) f

end Cert.KernelIdeal.R2

end
-- ==== Proof.KI.V2.lean ====
import proofs.«105382_j64407329571549_1_alg».proof.Proof.KI.R2
import proofs.«105382_j64407329571549_1_alg».proof.Proof.KI.P2
import proofs.«105382_j64407329571549_1_alg».proof.Proof.Spec
import Idealize.ShloMosaic.Lib.Pipeline.Value

noncomputable section

namespace Cert.KernelIdeal.R2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

theorem block_indices : ∀ t : Fin cfg2.N,
    win2_0.index t (0 : Fin 2) = t.val / 2 ∧ win2_0.index t (1 : Fin 2) = t.val % 2
    ∧ win2_1.index t (0 : Fin 2) = 0 ∧ win2_1.index t (1 : Fin 2) = t.val % 2
    ∧ win2_2.index t (0 : Fin 2) = t.val / 2 ∧ win2_2.index t (1 : Fin 2) = 0 :=
  (by decide +kernel : ∀ t : Fin grid2.N, _)

section Value

variable (V : (c : Dev nD) → (b : Ref sig .tc) → Buf (Elt Ideal) ((c : Thread nD τ).loc b))

abbrev lhsArr (c : Dev nD) : Cert.Spec.Mat 32768 4096 := V c main_v23
abbrev rhsArr (c : Dev nD) : Cert.Spec.Mat 1024 4096 := V c main_v19

-- An entry of the two factors' blocks at point t, in the arrays: row block t / 2 of the left factor, column block t mod 2 of both.
theorem blk_read (c : Dev nD) (t : Fin cfg2.N) (p q : Fin 1024) (k : Fin 2048) (r : Fin 32768) (s : Fin 4096)
    (hr : r.val = 1024 * (t.val / 2) + p.val) (hs : s.val = 2048 * (t.val % 2) + k.val) :
    blockAt V c 0 t (ix2 p k) = lhsArr V c (ix2 r s) ∧ blockAt V c 1 t (ix2 q k) = rhsArr V c (ix2 q s) := by
  obtain ⟨e0, e1, e2, e3, -, -⟩ := block_indices t
  unfold blockAt
  rw [View.read_apply, View.read_apply]
  show V c main_v23 _ = V c main_v23 _ ∧ V c main_v19 _ = V c main_v19 _
  refine ⟨?_, ?_⟩ <;> congr 1 <;> funext a <;> apply Fin.ext
  · match a with
    | ⟨0, _⟩ => show win2_0.index t (0 : Fin 2) * 1024 + 1 * p.val = r.val; rw [e0, hr]; omega
    | ⟨1, _⟩ => show win2_0.index t (1 : Fin 2) * 2048 + 1 * k.val = s.val; rw [e1, hs]; omega
  · match a with
    | ⟨0, _⟩ => show win2_1.index t (0 : Fin 2) * 1024 + 1 * q.val = q.val; rw [e2]; omega
    | ⟨1, _⟩ => show win2_1.index t (1 : Fin 2) * 2048 + 1 * k.val = s.val; rw [e3, hs]; omega

-- An entry of the result's block at point t, in the array: row block t / 2.
theorem out_emb (t : Fin cfg2.N) (p q : Fin 1024) (r : Fin 32768) (hr : r.val = 1024 * (t.val / 2) + p.val) :
    ((cfg2.win 2).blk t).view.emb (ix2 p q) = (ix2 r q : S32768x1024.Idx) := by
  obtain ⟨-, -, -, -, e4, e5⟩ := block_indices t
  funext a
  apply Fin.ext
  match a with
  | ⟨0, _⟩ => show win2_2.index t (0 : Fin 2) * 1024 + 1 * p.val = r.val; rw [e4, hr]; omega
  | ⟨1, _⟩ => show win2_2.index t (1 : Fin 2) * 1024 + 1 * q.val = q.val; rw [e5]; omega

-- The two half-sums an odd point's block holds are the sum over all 4096 columns, split after column 2047.
theorem flushed_eq (c : Dev nD) (t : Fin cfg2.N) (hf : (cfg2.win 2).flush t = true) :
    (dat V c).flushed 2 t = ((cfg2.win 2).blk t).view.read (Elt Ideal) (Cert.Spec.mmT (lhsArr V c) (rhsArr V c)) := by
  have h0 : ¬t.val % 2 = 0 := by have := (flush2_2 t).mp hf; omega
  have hN : t.val < 64 := lt_of_lt_of_eq t.isLt (show cfg2.N = 64 from N_2)
  show (cfg2.win 2).cut (grid2.coords t) ((dat V c).after 2 t) = _
  dsimp only [dat]
  unfold acc
  funext j
  obtain ⟨p, q, rfl⟩ : ∃ (p q : Fin 1024), j = ix2 p q := ⟨j 0, j 1, eq_ix2 j⟩
  have hp : p.val < 1024 := p.isLt
  rw [View.read_apply, out_emb t p q ⟨1024 * (t.val / 2) + p.val, by omega⟩ rfl]
  refine (two_steps_apply _ _ _ _ p q).trans ?_
  rw [Cert.Spec.mmT_apply, sum_halves]
  congr 1 <;> refine Finset.sum_congr rfl fun k _ => ?_
  · exact (blk_read V c _ p q k _ _ (by show 1024 * (t.val / 2) + p.val = 1024 * ((t.val - 1) / 2) + p.val; omega) (by show k.val = 2048 * ((t.val - 1) % 2) + k.val; omega)).elim (congrArg₂ (· * ·))
  · exact (blk_read V c t p q k _ _ rfl (by show 2048 + k.val = 2048 * (t.val % 2) + k.val; omega)).elim (congrArg₂ (· * ·))

-- Row r of the result lies in the block of the odd point 2 (r / 1024) + 1.
theorem covered (i : S32768x1024.Idx) : ∃ t : Fin cfg2.N, (cfg2.win 2).flush t = true ∧ i ∈ ((cfg2.win 2).blk t).view.set := by
  obtain ⟨r, q, rfl⟩ : ∃ (r : Fin 32768) (q : Fin 1024), i = ix2 r q := ⟨i 0, i 1, eq_ix2 i⟩
  have hr := r.isLt
  have ht : 2 * (r.val / 1024) + 1 < cfg2.N := by rw [show cfg2.N = 64 from N_2]; omega
  refine ⟨⟨_, ht⟩, (flush2_2 _).mpr (by show (2 * (r.val / 1024) + 1) % 2 = 1; omega), ?_⟩
  rw [← out_emb ⟨_, ht⟩ ⟨r.val % 1024, Nat.mod_lt _ (by decide)⟩ q r (by show r.val = 1024 * ((2 * (r.val / 1024) + 1) / 2) + r.val % 1024; omega)]
  exact View.emb_mem_set _ _

theorem final (c : Dev nD) :
    ((dat (F := Ideal) V c).arrAt 2 cfg2.N : Cert.Spec.Mat 32768 1024) = Cert.Spec.mmT (V c main_v23 : Cert.Spec.Mat 32768 4096) (V c main_v19 : Cert.Spec.Mat 1024 4096) :=
  (dat V c).arrAt_eq_of_cover 2 (Cert.Spec.mmT (lhsArr V c) (rhsArr V c)) (fun t hf => flushed_eq V c t hf) covered

end Value

end Cert.KernelIdeal.R2

end
-- ==== Proof.KI.P3.lean ====
import proofs.«105382_j64407329571549_1_alg».proof.Proof.Gen.KernelIdeal.Skeleton
import proofs.«105382_j64407329571549_1_alg».proof.Proof.LibDotRows
import Idealize.ShloMosaic.Lib.Pipeline.Value

noncomputable section

namespace Cert.KernelIdeal.R3

open Cert.KernelIdeal Cert.KernelIdeal.Gen
open Idealize.ShloMosaic Idealize.ShloMosaic.ValueIdx

-- Either payload at (p, q) is the sum over k of a[p, k] * b[q, k]: rows against rows from zero, nothing rounded, and the operands' casts are the identity.
theorem pay_apply (a b : Vec Ideal S1024x1024 .bf16) (p q : Fin 1024) :
    k3_pay2 (F := Ideal) a b (ix2 p q) = ∑ k : Fin 1024, a (ix2 p k) * b (ix2 q k)
      ∧ k3_pay3 (F := Ideal) a b (ix2 p q) = ∑ k : Fin 1024, a (ix2 p k) * b (ix2 q k) := by
  have h := Ideal.matmul_rows_zero_apply (φ₁ := .bf16) (φ₂ := .bf16) dot_S1024x1024_S1024x1024_S1024x1024_1_1_0_0_n_n rfl rfl rfl rfl (fun _ _ => rfl) (fun _ _ => rfl) a b p q
  simp only [k3_pay2, k3_pay3, k3_pay1, shapeCast_self]
  exact ⟨h, h⟩

end Cert.KernelIdeal.R3

end
-- ==== Proof.KI.V3.lean ====
import proofs.«105382_j64407329571549_1_alg».proof.Proof.KI.R3
import proofs.«105382_j64407329571549_1_alg».proof.Proof.KI.P3
import proofs.«105382_j64407329571549_1_alg».proof.Proof.Spec
import Idealize.ShloMosaic.Lib.Pipeline.Value

noncomputable section

namespace Cert.KernelIdeal.R3

open Cert.KernelIdeal Cert.KernelIdeal.Gen
open Cert.Spec (Mat mmT mmT_apply)
open Idealize.ShloMosaic Idealize.ShloMosaic.TcCoe Idealize.ShloMosaic.ValueIdx
open Idealize.SL.Sem

attribute [local irreducible] out

theorem zero_off : (![0, 0] : Fin 2 → Nat) = fun _ => 0 := funext fun a => by fin_cases a <;> rfl

-- Coordinate x of block number n, in blocks of 1024, is coordinate 1024 n + x of the array.
theorem at_block {i n x y : Nat} (h : i = n) (hy : 1024 * n + x = y) : i * 1024 + 1 * x = y := by omega

-- Decided over the 32 points: the activations and both results are cut into row tiles, one per point; each weight matrix is one block.
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

-- Row p of the t-th tile of 1024 rows, as a row of the 32768.
def row (t : Fin cfg3.N) (p : Fin 1024) : Fin 32768 :=
  ⟨1024 * t.val + p.val, by have := p.isLt; have := Nat.lt_of_lt_of_eq t.isLt N_3; omega⟩

-- Entry (r p, q) of A Bᵀ reads only row r p of A: rows r of A against all of B give rows r of the product.
theorem tile {pay : Vec Ideal S1024x1024 .bf16 → Vec Ideal S1024x1024 .bf16 → FVec Ideal S1024x1024 .f32}
    (hpay : ∀ a b p q, pay a b (ix2 p q) = ∑ k : Fin 1024, a (ix2 p k) * b (ix2 q k))
    {a b : Vec Ideal S1024x1024 .bf16} {A : Mat 32768 1024} {B : Mat 1024 1024} {r : Fin 1024 → Fin 32768}
    (ha : ∀ p k, a (ix2 p k) = A (ix2 (r p) k)) (hb : ∀ q k, b (ix2 q k) = B (ix2 q k))
    (j : S1024x1024.Idx) (i : S32768x1024.Idx) (h0 : (i 0).val = (r (j 0)).val) (h1 : (i 1).val = (j 1).val) :
    out pay a b j = mmT A B i := by
  unfold out
  rw [View.canon_unit_zero zero_off]
  simp only [View.ld_unit_zero (S := S1024x1024) zero_off]
  obtain ⟨p, q, rfl⟩ : ∃ (p : Fin 1024) (q : Fin 1024), j = ix2 p q := ⟨j 0, j 1, eq_ix2 j⟩
  rw [hpay, (Shape.idx_ext₂ h0 h1 : i = ix2 (r p) q), mmT_apply]
  exact Finset.sum_congr rfl fun k _ => by rw [ha, hb]

variable (V : (c : Dev nD) → (b : Ref sig .tc) → Buf (Elt Ideal) ((c : Thread nD τ).loc b))

-- Point t's block of the activations is their t-th row tile; its block of either weight matrix is the matrix.
theorem blocks (c : Dev nD) (t : Fin cfg3.N) :
    (∀ p k, (iblk V c 0 t : Vec Ideal S1024x1024 .bf16) (ix2 p k) = (V c main_v21 : Mat 32768 1024) (ix2 (row t p) k))
    ∧ (∀ q k, (iblk V c 1 t : Vec Ideal S1024x1024 .bf16) (ix2 q k) = (V c main_v11 : Mat 1024 1024) (ix2 q k))
    ∧ (∀ q k, (iblk V c 2 t : Vec Ideal S1024x1024 .bf16) (ix2 q k) = (V c main_v17 : Mat 1024 1024) (ix2 q k)) := by
  obtain ⟨e00, e01, e10, e11, e20, e21, -⟩ := index_facts t
  refine ⟨fun p k => ?_, fun q k => ?_, fun q k => ?_⟩ <;> (unfold iblk; rw [View.read_apply])
  · exact congrArg (V c main_v21) (Shape.idx_ext₂ (at_block e00 rfl) (at_block e01 (Nat.zero_add _)))
  · exact congrArg (V c main_v11) (Shape.idx_ext₂ (at_block e10 (Nat.zero_add _)) (at_block e11 (Nat.zero_add _)))
  · exact congrArg (V c main_v17) (Shape.idx_ext₂ (at_block e20 (Nat.zero_add _)) (at_block e21 (Nat.zero_add _)))

-- The block of either result at point t is the t-th row tile of the activations times the transpose of that result's weights.
theorem written (c : Dev nD) (t : Fin cfg3.N) :
    (dat V c).flushed 3 t = ((cfg3.win 3).blk t).view.read (Elt Ideal) (mmT (V c main_v21 : Mat 32768 1024) (V c main_v11 : Mat 1024 1024))
    ∧ (dat V c).flushed 4 t = ((cfg3.win 4).blk t).view.read (Elt Ideal) (mmT (V c main_v21 : Mat 32768 1024) (V c main_v17 : Mat 1024 1024)) := by
  obtain ⟨-, -, -, -, -, -, e30, e31, e40, e41⟩ := index_facts t
  obtain ⟨ha, hb1, hb2⟩ := blocks V c t
  constructor <;> funext j
  · show out k3_pay2 (iblk V c 0 t) (iblk V c 1 t) ((cfg3.win 3).xinj (grid3.coords t) j) = mmT _ _ (((cfg3.win 3).blk t).view.emb j)
    exact tile (fun a b p q => (pay_apply a b p q).1) ha hb1 _ _ (at_block e30 rfl) (at_block e31 (Nat.zero_add _))
  · show out k3_pay3 (iblk V c 0 t) (iblk V c 2 t) ((cfg3.win 4).xinj (grid3.coords t) j) = mmT _ _ (((cfg3.win 4).blk t).view.emb j)
    exact tile (fun a b p q => (pay_apply a b p q).2) ha hb2 _ _ (at_block e40 rfl) (at_block e41 (Nat.zero_add _))

-- Row r lies in the row tile numbered r / 1024, and every column in the one block of columns.
theorem mem_tile {idx : Fin 2 → Nat} (i : S32768x1024.Idx) (h0 : idx 0 = (i 0).val / 1024) (h1 : idx 1 = 0) :
    ∀ a : Fin 2, idx a * S1024x1024.size a ≤ (i a).val ∧ (i a).val < idx a * S1024x1024.size a + S1024x1024.size a
  | ⟨0, _⟩ => by
    show idx 0 * 1024 ≤ (i 0).val ∧ (i 0).val < idx 0 * 1024 + 1024; omega
  | ⟨1, _⟩ => by
    show idx 1 * 1024 ≤ (i 1).val ∧ (i 1).val < idx 1 * 1024 + 1024
    have : (i 1).val < 1024 := (i 1).isLt; omega

-- The point whose row tile holds row i 0.
def pt (i : S32768x1024.Idx) : Fin cfg3.N :=
  ⟨(i 0).val / 1024, by rw [show cfg3.N = 32 from N_3]; have : (i 0).val < 32768 := (i 0).isLt; omega⟩

-- So the 32 row tiles fill either result.
theorem cover (i : S32768x1024.Idx) :
    ((cfg3.win 3).flush (pt i) = true ∧ i ∈ ((cfg3.win 3).blk (pt i)).view.set)
    ∧ (cfg3.win 4).flush (pt i) = true ∧ i ∈ ((cfg3.win 4).blk (pt i)).view.set := by
  obtain ⟨-, -, -, -, -, -, e30, e31, e40, e41⟩ := index_facts (pt i)
  refine ⟨⟨flush3_3 _, ?_⟩, flush3_4 _, ?_⟩
  · show i ∈ ((View.whole main_v25_0).slice (win3_3.rect (pt i))).set
    rw [View.set_slice_whole, Rect.mem_set_unit]; exact mem_tile i e30 e31
  · show i ∈ ((View.whole main_v25_1).slice (win3_4.rect (pt i))).set
    rw [View.set_slice_whole, Rect.mem_set_unit]; exact mem_tile i e40 e41

theorem final3 (c : Dev nD) :
    ((dat (F := Ideal) V c).arrAt 3 cfg3.N : Mat 32768 1024) = mmT (V c main_v21 : Mat 32768 1024) (V c main_v11 : Mat 1024 1024) :=
  (dat (F := Ideal) V c).arrAt_eq_of_cover 3 _ (fun t _ => (written V c t).1) fun i => ⟨_, (cover i).1⟩

theorem final4 (c : Dev nD) :
    ((dat (F := Ideal) V c).arrAt 4 cfg3.N : Mat 32768 1024) = mmT (V c main_v21 : Mat 32768 1024) (V c main_v17 : Mat 1024 1024) :=
  (dat (F := Ideal) V c).arrAt_eq_of_cover 4 _ (fun t _ => (written V c t).2) fun i => ⟨_, (cover i).2⟩

end Cert.KernelIdeal.R3

end
-- ==== Proof.KI.P4.lean ====
import proofs.«105382_j64407329571549_1_alg».proof.Proof.Gen.KernelIdeal.Skeleton
import proofs.«105382_j64407329571549_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.R4

open Cert.KernelIdeal Cert.KernelIdeal.Gen
open Idealize.ShloMosaic Idealize.ShloMosaic.ValueIdx

section Column

variable {α : Type}

-- a vector viewed as a column: both indices have row-major position `i`
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- a column broadcast along the rows reads the column's entry of the row
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem rsqrt_apply {s : Shape} {φ : FTy} (a : FVec Ideal s φ) (i : s.Idx) : rsqrt a i = Ideal.rsqrt (a i) := rfl

-- the sum along the second axis, at row `p`, is the sum of the row's entries
theorem rowSum_apply (v : FVec Ideal S512x1024 .f32) (hφ : FKind.Formats .f32)
    (hacc : (0x00000000#32 : BitVec 32) = 0x00000000#32) (p : Fin 512) :
    multiReduction (F := Ideal) .add [1] S512 v 0x00000000#32 reduces_S512x1024_S512 hφ hacc (ix1 p)
      = ∑ k : Fin 1024, v (ix2 p k) := by
  refine (Ideal.multiReduction_add_single v 0x00000000#32 reduces_S512x1024_S512 hφ hacc (ix1 p)).trans ?_
  refine Finset.sum_congr rfl fun k _ => congrArg v ?_
  funext c
  match c with
  | ⟨0, _⟩ => rfl
  | ⟨1, _⟩ => rfl

-- the stored payload, entry by entry, is the specification's layer normalisation of the three tiles' sum
theorem pay1_apply (v0 v2 v5 : Vec Ideal S512x1024 .f32) (g b : Vec Ideal S1x1024 .f32) (p : Fin 512) (q : Fin 1024) :
    (k4_pay1 (F := Ideal) v0 v2 v5 g b) (ix2 p q)
      = Cert.Spec.layerNorm (Cert.Spec.add3 (v0 : Cert.Spec.Mat 512 1024) v2 v5) (g : Cert.Spec.Mat 1 1024) b (ix2 p q) := by
  unfold k4_pay1
  simp only [shapeCast_self]
  simp only [addf_apply, mulf_apply, subf_apply, divf_apply, rsqrt_apply, broadcast_apply,
    broadcastTo_a1_ab_apply, broadcastTo_1b_ab_apply, shapeCast_a_a1_apply]
  rw [rowSum_apply, rowSum_apply]
  simp only [addf_apply, mulf_apply, subf_apply, divf_apply, broadcast_apply, broadcastTo_a1_ab_apply, shapeCast_a_a1_apply]
  rw [rowSum_apply]
  simp only [addf_apply]
  rfl

-- the mean, the centred entries and the variance of a row are functions of that row alone
theorem layerNorm_congr_row {M M' : Nat} (z : Cert.Spec.Mat M 1024) (z' : Cert.Spec.Mat M' 1024) (g b g' b' : Cert.Spec.Mat 1 1024)
    (r : Fin M) (r' : Fin M') (hz : ∀ k : Fin 1024, z (ix2 r k) = z' (ix2 r' k))
    (hg : ∀ k : Fin 1024, g (ix2 0 k) = g' (ix2 0 k)) (hb : ∀ k : Fin 1024, b (ix2 0 k) = b' (ix2 0 k)) (q : Fin 1024) :
    Cert.Spec.layerNorm z g b (ix2 r q) = Cert.Spec.layerNorm z' g' b' (ix2 r' q) := by
  have hmean : Cert.Spec.rowMean z r = Cert.Spec.rowMean z' r' := by unfold Cert.Spec.rowMean; simp only [hz]
  have hcen : ∀ k : Fin 1024, Cert.Spec.centered z (ix2 r k) = Cert.Spec.centered z' (ix2 r' k) := fun k =>
    congrArg₂ (· - ·) (hz k) hmean
  have hvar : Cert.Spec.rowVar z r = Cert.Spec.rowVar z' r' := by unfold Cert.Spec.rowVar; simp only [hcen]
  show Cert.Spec.centered z (ix2 r q) * Ideal.rsqrt (Cert.Spec.rowVar z r + Cert.Spec.eps) * g (ix2 0 q) + b (ix2 0 q) = _
  rw [hcen q, hvar, hg q, hb q]; rfl

end Cert.KernelIdeal.R4

end
-- ==== Proof.KI.V4.lean ====
import proofs.«105382_j64407329571549_1_alg».proof.Proof.KI.R4
import proofs.«105382_j64407329571549_1_alg».proof.Proof.KI.P4
import proofs.«105382_j64407329571549_1_alg».proof.Proof.Spec
import Idealize.ShloMosaic.Lib.Pipeline.Value
import Idealize.ShloMosaic.Lib.ValueIdx

noncomputable section

namespace Cert.KernelIdeal.R4

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

abbrev target (c : Dev nD) : Cert.Spec.Mat 32768 1024 :=
  Cert.Spec.layerNorm (Cert.Spec.add3 (V c main_v24 : Cert.Spec.Mat 32768 1024) (V c main_v25_0 : Cert.Spec.Mat 32768 1024)
    (V c main_v25_1 : Cert.Spec.Mat 32768 1024)) (V c main_v26 : Cert.Spec.Mat 1 1024) (V c main_v27 : Cert.Spec.Mat 1 1024)

-- the four 512-row windows sit at block row `t`, block column 0; the two one-row windows at block column 0
theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (1 : Fin 2) = 0 ∧ win4_4.index t (1 : Fin 2) = 0
    ∧ win4_5.index t (0 : Fin 2) = t.val ∧ win4_5.index t (1 : Fin 2) = 0 :=
  (by decide +kernel : ∀ t : Fin grid4.N, _)

abbrev rowOf (t : Fin cfg4.N) (p : Fin 512) : Fin 32768 :=
  ⟨512 * t.val + p.val, by have := t.isLt; have : cfg4.N = 64 := N_4; have := p.isLt; omega⟩

-- an index at block row `t`, block column 0 of 512 × 1024 blocks, offset `(p, k)` in the block, is `(512·t + p, k)`
theorem at_row (t : Fin cfg4.N) (p : Fin 512) (k : Fin 1024) (x : S32768x1024.Idx) (i0 i1 : ℕ) (e0 : i0 = t.val) (e1 : i1 = 0)
    (h0 : (x 0).val = i0 * 512 + 1 * p.val) (h1 : (x 1).val = i1 * 1024 + 1 * k.val) : x = ix2 (rowOf t p) k := by
  subst e0 e1; refine funext fun a => Fin.ext ?_
  match a with
  | ⟨0, _⟩ => show (x 0).val = 512 * t.val + p.val; omega
  | ⟨1, _⟩ => show (x 1).val = k.val; omega

-- likewise in a one-row array
theorem at_first (k : Fin 1024) (x : S1x1024.Idx) (i1 : ℕ) (e1 : i1 = 0) (h1 : (x 1).val = i1 * 1024 + 1 * k.val) :
    x = ix2 (0 : Fin 1) k := by
  subst e1; refine funext fun a => Fin.ext ?_
  match a with
  | ⟨0, _⟩ => show (x 0).val = 0; have := idx2_lt0 x; omega
  | ⟨1, _⟩ => show (x 1).val = k.val; omega

theorem tile0_apply (c : Dev nD) (t : Fin cfg4.N) (p : Fin 512) (k : Fin 1024) :
    tile V c 0 t (ix2 p k) = V c main_v24 (ix2 (rowOf t p) k) := by
  obtain ⟨e0, e1, -⟩ := blockIndex t
  unfold tile; rw [View.read_apply]; exact congrArg (V c main_v24) (at_row t p k _ _ _ e0 e1 rfl rfl)

theorem tile1_apply (c : Dev nD) (t : Fin cfg4.N) (p : Fin 512) (k : Fin 1024) :
    tile V c 1 t (ix2 p k) = V c main_v25_0 (ix2 (rowOf t p) k) := by
  obtain ⟨-, -, e0, e1, -⟩ := blockIndex t
  unfold tile; rw [View.read_apply]; exact congrArg (V c main_v25_0) (at_row t p k _ _ _ e0 e1 rfl rfl)

theorem tile2_apply (c : Dev nD) (t : Fin cfg4.N) (p : Fin 512) (k : Fin 1024) :
    tile V c 2 t (ix2 p k) = V c main_v25_1 (ix2 (rowOf t p) k) := by
  obtain ⟨-, -, -, -, e0, e1, -⟩ := blockIndex t
  unfold tile; rw [View.read_apply]; exact congrArg (V c main_v25_1) (at_row t p k _ _ _ e0 e1 rfl rfl)

theorem tile3_apply (c : Dev nD) (t : Fin cfg4.N) (k : Fin 1024) :
    tile V c 3 t (ix2 (0 : Fin 1) k) = V c main_v26 (ix2 (0 : Fin 1) k) := by
  obtain ⟨-, -, -, -, -, -, e1, -⟩ := blockIndex t
  unfold tile; rw [View.read_apply]; exact congrArg (V c main_v26) (at_first k _ _ e1 rfl)

theorem tile4_apply (c : Dev nD) (t : Fin cfg4.N) (k : Fin 1024) :
    tile V c 4 t (ix2 (0 : Fin 1) k) = V c main_v27 (ix2 (0 : Fin 1) k) := by
  obtain ⟨-, -, -, -, -, -, -, e1, -⟩ := blockIndex t
  unfold tile; rw [View.read_apply]; exact congrArg (V c main_v27) (at_first k _ _ e1 rfl)

theorem resultBlock_emb (t : Fin cfg4.N) (p : Fin 512) (q : Fin 1024) :
    (((cfg4.win 5).blk t).view.emb (ix2 p q) : S32768x1024.Idx) = ix2 (rowOf t p) q := by
  obtain ⟨-, -, -, -, -, -, -, -, e0, e1⟩ := blockIndex t
  exact at_row t p q _ _ _ e0 e1 rfl rfl

-- the normalisation of a row sees that row only, and row `p` of the tiles' sum is row `512·t + p` of the arrays' sum
theorem flushed_eq (c : Dev nD) (t : Fin cfg4.N) :
    (dat (F := Ideal) V c).flushed 5 t = ((cfg4.win 5).blk t).view.read (Elt Ideal) (target V c) := by
  funext j
  obtain ⟨p, q, rfl⟩ : ∃ (p : Fin 512) (q : Fin 1024), j = ix2 p q := ⟨j 0, j 1, eq_ix2 j⟩
  show k4_pay1 (F := Ideal) (tile V c 0 t) (tile V c 1 t) (tile V c 2 t) (tile V c 3 t) (tile V c 4 t) (ix2 p q)
    = target V c (((cfg4.win 5).blk t).view.emb (ix2 p q))
  rw [pay1_apply, resultBlock_emb]
  refine layerNorm_congr_row _ _ _ _ _ _ p (rowOf t p) (fun k => ?_) (tile3_apply V c t) (tile4_apply V c t) q
  unfold Cert.Spec.add3
  rw [tile0_apply V c t p k, tile1_apply V c t p k, tile2_apply V c t p k]

-- row `r` lies in the block of point `r / 512`
theorem covered (i : S32768x1024.Idx) :
    ∃ t : Fin cfg4.N, (cfg4.win 5).flush t = true ∧ i ∈ ((cfg4.win 5).blk t).view.set := by
  have h0 := idx2_lt0 i
  have hN : cfg4.N = 64 := N_4
  obtain ⟨t, p, q, rfl⟩ : ∃ (t : Fin cfg4.N) (p : Fin 512) (q : Fin 1024), i = ix2 (rowOf t p) q :=
    ⟨⟨(i 0).val / 512, by omega⟩, ⟨(i 0).val % 512, by omega⟩, i 1,
      (eq_ix2 i).trans (congrArg (ix2 · (i 1)) (Fin.ext (by show (i 0).val = 512 * ((i 0).val / 512) + (i 0).val % 512; omega)))⟩
  refine ⟨t, flush4_5 t, ?_⟩
  rw [← resultBlock_emb]
  exact View.emb_mem_set _ _

theorem final (V : (c : Dev nD) → (b : Ref sig .tc) → Buf (Elt Ideal) ((c : Thread nD τ).loc b)) (c : Dev nD) :
    ((dat (F := Ideal) V c).arrAt 5 cfg4.N : Cert.Spec.Mat 32768 1024)
      = Cert.Spec.layerNorm (Cert.Spec.add3 (V c main_v24 : Cert.Spec.Mat 32768 1024) (V c main_v25_0 : Cert.Spec.Mat 32768 1024) (V c main_v25_1 : Cert.Spec.Mat 32768 1024)) (V c main_v26 : Cert.Spec.Mat 1 1024) (V c main_v27 : Cert.Spec.Mat 1 1024) :=
  (dat (F := Ideal) V c).arrAt_eq_of_cover 5 (target V c) (fun t _ => flushed_eq V c t) covered

end Cert.KernelIdeal.R4

end
-- ==== Proof.KI.Value.lean ====
import proofs.«105382_j64407329571549_1_alg».proof.Proof.KI.Frame
import proofs.«105382_j64407329571549_1_alg».proof.Proof.KI.Run
import proofs.«105382_j64407329571549_1_alg».proof.Proof.KI.Host
import proofs.«105382_j64407329571549_1_alg».proof.Proof.KI.V0
import proofs.«105382_j64407329571549_1_alg».proof.Proof.KI.V1
import proofs.«105382_j64407329571549_1_alg».proof.Proof.KI.V2
import proofs.«105382_j64407329571549_1_alg».proof.Proof.KI.V3
import proofs.«105382_j64407329571549_1_alg».proof.Proof.KI.V4

noncomputable section

namespace Cert.KernelIdeal.Asm

open Cert.KernelIdeal Cert.KernelIdeal.Gen
open Idealize.ShloMosaic Idealize.ShloMosaic.TcCoe
open Idealize.SL Idealize.SL.BI Idealize.SL.Sem
open Cert.Spec (Mat Cube Vec1 mmT relu layerNorm add3 net flat unflat row deq result)

variable (m : (ℓ : Loc nD τ sig) → Buf (Elt Ideal) ℓ)

set_option backward.isDefEq.respectTransparency.types false in
-- Every execution ends, nothing faulting, and the final memory is the last valuation.
theorem run_main (ρ : Dev nD → PrngReg) :
    θ_run defs (onTc (τ := τ) (main (F := Ideal))) ⟨m, fun _ => 0, ρ⟩ (fun r => ∀ c : Dev nD,
      ∀ b ∈ Pipeline.ucRefs τ sig, r.2.mem ((c : Thread nD τ).1, b) = V8 m (outs m) c b) :=
  GenP.run_cond m (emb₁ (sig := sig) (nD := nD) (τ := τ)) () Variants.none L₀ lv₀ (fun _ _ => rfl) ρ (outs m) (pdats m)
    (0 : Dev nD → CellTallies nD τ sig Unit) (fun _ => BI.emp) u₀ hu₀ (fun _ c => ride (F := Ideal) c) (hE0 ρ) hE5
    (reg0 m) (fun c => enter c _ _ rfl) (fun c => leave c _ _ (V2_eq m c))
    (reg1 m) (fun c => enter c _ _ (V2_eq m c)) (fun c => leave c _ _ (V3_eq m c))
    (reg2 m) (fun c => enter c _ _ (V3_eq m c)) (fun c => leave c _ _ (V4_eq m c))
    (reg3 m) (fun c => enter c _ _ (V4_eq m c)) (fun c => leave c _ _ (V5_eq m c))
    (reg4 m) (fun c => enter c _ _ (V6_eq m c)) (fun c => leave c _ _ (V7_eq m c))

variable (c : Dev nD)

abbrev arg (b : Ref sig .tc) : Buf (Elt Ideal) ((c.tc : Thread nD τ).loc b) := m ((c.tc : Thread nD τ).loc b)

theorem U6_of (r : Ref sig .tc) (h : r ∉ hostOps4_W) : U6 m c r = U5 m c r :=
  StableHlo.after_of_writes_sub hostOps4 _ hostOps4_writes h

-- An array that no item in between writes is still what the first host stretch made it.
theorem U4_keeps (r : Ref sig .tc) (h2 : r ≠ main_v22) (h3 : r ≠ main_v23) (h4 : r ≠ main_v24) : U4 m c r = V1 m c r :=
  (U4_of m c r h4).trans ((U3_of m c r h3).trans (U2_of m c r h2))

abbrev x0 : Mat 32768 1024 := flat (arg m c main_arg0)
abbrev wl : Mat 4096 1024 := deq (n := 32) (arg m c main_arg1) (arg m c main_arg8)
abbrev ws1 : Mat 1024 1024 := deq (n := 8) (arg m c main_arg2) (arg m c main_arg9)
abbrev ws2 : Mat 1024 1024 := deq (n := 8) (arg m c main_arg3) (arg m c main_arg10)
abbrev big1 : Mat 32768 4096 := relu (mmT (x0 m c) (wl m c))
abbrev big2 : Mat 32768 4096 := relu (mmT (big1 m c) (arg m c main_arg4))
abbrev big3 : Mat 32768 1024 := mmT (big2 m c) (arg m c main_arg5)

theorem big1_eq : (U2 m c main_v22 : Mat 32768 4096) = big1 m c :=
  (U2_self m c).trans ((R0.final (rd (U1 m)) c).trans (congrArg₂ (fun a b => relu (mmT a b)) (HostGlue.v21 m c) (HostGlue.v5 m c)))
theorem big2_eq : (U3 m c main_v23 : Mat 32768 4096) = big2 m c :=
  (U3_self m c).trans ((R1.final (rd (U2 m)) c).trans (congrArg₂ (fun a b => relu (mmT a b)) (big1_eq m c)
    ((U2_of m c main_v18 (by decide)).trans (HostGlue.v18 m c))))
theorem big3_eq : (U4 m c main_v24 : Mat 32768 1024) = big3 m c :=
  (U4_self m c).trans ((R2.final (rd (U3 m)) c).trans (congrArg₂ mmT (big2_eq m c)
    ((U3_of m c main_v19 (by decide)).trans ((U2_of m c main_v19 (by decide)).trans (HostGlue.v19 m c)))))
theorem s1_eq : (U5 m c main_v25_0 : Mat 32768 1024) = mmT (x0 m c) (ws1 m c) :=
  (U5_self0 m c).trans ((R3.final3 (rd (U4 m)) c).trans (congrArg₂ mmT
    ((U4_keeps m c main_v21 (by decide) (by decide) (by decide)).trans (HostGlue.v21 m c))
    ((U4_keeps m c main_v11 (by decide) (by decide) (by decide)).trans (HostGlue.v11 m c))))
theorem s2_eq : (U5 m c main_v25_1 : Mat 32768 1024) = mmT (x0 m c) (ws2 m c) :=
  (U5_self1 m c).trans ((R3.final4 (rd (U4 m)) c).trans (congrArg₂ mmT
    ((U4_keeps m c main_v21 (by decide) (by decide) (by decide)).trans (HostGlue.v21 m c))
    ((U4_keeps m c main_v17 (by decide) (by decide) (by decide)).trans (HostGlue.v17 m c))))

-- The last region's 32768 rows are the network of the flattened input.
theorem rows_out_eq : (U7 m c main_v28 : Mat 32768 1024)
    = net (x0 m c) (wl m c) (ws1 m c) (ws2 m c) (arg m c main_arg4) (arg m c main_arg5) (row (arg m c main_arg6)) (row (arg m c main_arg7)) := by
  refine (U7_self m c).trans ((R4.final (rd (U6 m)) c).trans ?_)
  show layerNorm (add3 (U6 m c main_v24 : Mat 32768 1024) (U6 m c main_v25_0 : Mat 32768 1024) (U6 m c main_v25_1 : Mat 32768 1024))
      (U6 m c main_v26 : Mat 1 1024) (U6 m c main_v27 : Mat 1 1024) = _
  rw [(U6_of m c main_v24 (by decide)).trans ((U5_of m c main_v24 (by decide) (by decide)).trans (big3_eq m c)),
    (U6_of m c main_v25_0 (by decide)).trans (s1_eq m c), (U6_of m c main_v25_1 (by decide)).trans (s2_eq m c),
    (congrFun (V6_eq m c) _).symm.trans (HostGlue.v26 m (outs m) c), (congrFun (V6_eq m c) _).symm.trans (HostGlue.v27 m (outs m) c)]
  rfl

-- The result buffer at the end is the specification's result of the eleven argument arrays as launched.
theorem result_eq : (V8 m (outs m) c main_v29 : Cube 1024)
    = result (arg m c main_arg0) (arg m c main_arg1) (arg m c main_arg2) (arg m c main_arg3) (arg m c main_arg4) (arg m c main_arg5) (arg m c main_arg6)
        (arg m c main_arg7) (arg m c main_arg8) (arg m c main_arg9) (arg m c main_arg10) :=
  (HostGlue.v29 m (outs m) c).trans (congrArg unflat ((congrFun (V7_eq m c) _).trans (rows_out_eq m c)))

end Cert.KernelIdeal.Asm

end
-- ==== Proof.Ref.lean ====
import proofs.«105382_j64407329571549_1_alg».proof.Proof.Gen.ReferenceIdeal.Run
import proofs.«105382_j64407329571549_1_alg».proof.Proof.Gen.ReferenceIdeal.Read
import proofs.«105382_j64407329571549_1_alg».proof.Proof.Layout

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.TcCoe Idealize.SL.Sem

-- Two broadcasts and two reshapes spread a scale over its 128 × 128 blocks: entry (o, h) reads the scale at (o / 128, h / 128).
theorem blkIx {n : Nat} (i : (⟨2, ![n, 8]⟩ : Shape).Idx) (o : Fin (n * 128)) (h : Fin 1024)
    (h0 : (i 0).val = ((o.val * 1024 + h.val) / 1024 * 8 + (o.val * 1024 + h.val) / 128 % 8) / 1024)
    (h1 : (i 1).val = ((o.val * 1024 + h.val) / 1024 * 8 + (o.val * 1024 + h.val) / 128 % 8) % 8) :
    i = ix2 (blk128 o) (blk128 (n := 8) h) := by
  have := h.isLt
  refine (eq_ix2 i).trans (congrArg₂ ix2 (Fin.ext ?_) (Fin.ext ?_))
  · rw [h0, blk128_val]; omega
  · rw [h1, blk128_val]; omega

theorem scaleL_eq (w : Mat 4096 1024) (s : Mat 32 8) : (val_main_v4 (F := Ideal) w s : Mat 4096 1024) = deq (n := 32) w s := by
  funext j
  obtain ⟨o, h, rfl⟩ : ∃ (o : Fin 4096) (h : Fin 1024), j = ix2 o h := ⟨j 0, j 1, eq_ix2 j⟩
  rw [val_main_v4_apply, val_main_v3_apply, val_main_v2_apply, val_main_v1_apply, val_main_v0_apply,
    blkIx (n := 32) (idx_main_v0 (idx_main_v1 (idx_main_v2 (idx_main_v3 (ix2 o h))))) o h rfl rfl]
  rfl

theorem scaleS1_eq (w : Mat 1024 1024) (s : Mat 8 8) : (val_main_v14 (F := Ideal) w s : Mat 1024 1024) = deq (n := 8) w s := by
  funext j
  obtain ⟨o, h, rfl⟩ : ∃ (o : Fin 1024) (h : Fin 1024), j = ix2 o h := ⟨j 0, j 1, eq_ix2 j⟩
  rw [val_main_v14_apply, val_main_v13_apply, val_main_v12_apply, val_main_v11_apply, val_main_v10_apply,
    blkIx (n := 8) (idx_main_v10 (idx_main_v11 (idx_main_v12 (idx_main_v13 (ix2 o h))))) o h rfl rfl]
  rfl

theorem scaleS2_eq (w : Mat 1024 1024) (s : Mat 8 8) : (val_main_v20 (F := Ideal) w s : Mat 1024 1024) = deq (n := 8) w s := by
  funext j
  obtain ⟨o, h, rfl⟩ : ∃ (o : Fin 1024) (h : Fin 1024), j = ix2 o h := ⟨j 0, j 1, eq_ix2 j⟩
  rw [val_main_v20_apply, val_main_v19_apply, val_main_v18_apply, val_main_v17_apply, val_main_v16_apply,
    blkIx (n := 8) (idx_main_v16 (idx_main_v17 (idx_main_v18 (idx_main_v19 (ix2 o h))))) o h rfl rfl]
  rfl

theorem flat_unflat {N : Nat} (y : Mat 32768 N) : flat (unflat y) = y := by
  funext j
  obtain ⟨r, q, rfl⟩ : ∃ (r : Fin 32768) (q : Fin N), j = ix2 r q := ⟨j 0, j 1, eq_ix2 j⟩
  rw [flat_apply, unflat_apply, rowIx_rowB_rowS]

theorem cube_ext {N : Nat} {f g : Cube N} (h : ∀ b s o, f (ix3 b s o) = g (ix3 b s o)) : f = g :=
  funext fun i => by rw [eq_ix3 i]; exact h _ _ _

-- Contracting the cube's last axis with a weight's last axis: row (b, s) of the cube is flat row 4096·b + s.
theorem cubeDot {K N : Nat} (x : Cube K) (w : Mat N K) (b : Fin 8) (s : Fin 4096) (o : Fin N)
    (l : Fin K → (⟨3, ![8, 4096, K]⟩ : Shape).Idx) (r : Fin K → (⟨2, ![N, K]⟩ : Shape).Idx)
    (hl : ∀ k, l k = ix3 b s k) (hr : ∀ k, r k = ix2 o k) :
    ∑ k : Fin K, x (l k) * w (r k) = unflat (mmT (flat x) w) (ix3 b s o) := by
  rw [unflat_apply, mmT_apply]
  refine Finset.sum_congr rfl fun k _ => ?_
  rw [hl, hr, flat_apply, rowB_rowIx, rowS_rowIx]

section Stages

variable (x0 : Cube 1024) (x1 : Mat 4096 1024) (x2 x3 : Mat 1024 1024) (x4 : Mat 4096 4096) (x5 : Mat 1024 4096)
  (x6 x7 : Vec1 1024) (x8 : Mat 32 8) (x9 x10 : Mat 8 8)

theorem wide1_eq : (val_main_v5 (F := Ideal) x0 x1 x8 : Cube 4096) = unflat (mmT (flat x0) (deq (n := 32) x1 x8)) := by
  refine cube_ext fun b s o => ?_
  rw [val_main_v5_apply, scaleL_eq]
  exact cubeDot x0 _ b s o (lidx_main_v5 (ix3 b s o)) (ridx_main_v5 (ix3 b s o)) (fun _ => (eq_ix3 _).trans rfl) (fun _ => (eq_ix2 _).trans rfl)

theorem relu1_eq : (val_main_v6 (F := Ideal) x0 x1 x8 : Cube 4096) = unflat (relu (mmT (flat x0) (deq (n := 32) x1 x8))) := by
  refine cube_ext fun b s o => ?_
  rw [val_main_v6_apply, wide1_eq, val_main_call0_v0_apply, val_main_call0_cst_apply, unflat_apply, unflat_apply, relu_apply,
    Ideal.maximumf_def, Ideal.ofBits_def, Ideal.ofBits_zero_f32]

theorem wide2_eq : (val_main_v7 (F := Ideal) x0 x1 x4 x8 : Cube 4096)
    = unflat (mmT (relu (mmT (flat x0) (deq (n := 32) x1 x8))) x4) := by
  refine cube_ext fun b s o => ?_
  rw [val_main_v7_apply, relu1_eq]
  refine (cubeDot _ x4 b s o (lidx_main_v7 (ix3 b s o)) (ridx_main_v7 (ix3 b s o)) (fun _ => (eq_ix3 _).trans rfl) (fun _ => (eq_ix2 _).trans rfl)).trans ?_
  rw [flat_unflat]

theorem relu2_eq : (val_main_v8 (F := Ideal) x0 x1 x4 x8 : Cube 4096)
    = unflat (relu (mmT (relu (mmT (flat x0) (deq (n := 32) x1 x8))) x4)) := by
  refine cube_ext fun b s o => ?_
  rw [val_main_v8_apply, wide2_eq, val_main_call1_v0_apply, val_main_call1_cst_apply, unflat_apply, unflat_apply, relu_apply,
    Ideal.maximumf_def, Ideal.ofBits_def, Ideal.ofBits_zero_f32]

theorem wide3_eq : (val_main_v9 (F := Ideal) x0 x1 x4 x5 x8 : Cube 1024)
    = unflat (mmT (relu (mmT (relu (mmT (flat x0) (deq (n := 32) x1 x8))) x4)) x5) := by
  refine cube_ext fun b s o => ?_
  rw [val_main_v9_apply, relu2_eq]
  refine (cubeDot _ x5 b s o (lidx_main_v9 (ix3 b s o)) (ridx_main_v9 (ix3 b s o)) (fun _ => (eq_ix3 _).trans rfl) (fun _ => (eq_ix2 _).trans rfl)).trans ?_
  rw [flat_unflat]

theorem narrow1_eq : (val_main_v15 (F := Ideal) x0 x2 x9 : Cube 1024) = unflat (mmT (flat x0) (deq (n := 8) x2 x9)) := by
  refine cube_ext fun b s o => ?_
  rw [val_main_v15_apply, scaleS1_eq]
  exact cubeDot x0 _ b s o (lidx_main_v15 (ix3 b s o)) (ridx_main_v15 (ix3 b s o)) (fun _ => (eq_ix3 _).trans rfl) (fun _ => (eq_ix2 _).trans rfl)

theorem narrow2_eq : (val_main_v21 (F := Ideal) x0 x3 x10 : Cube 1024) = unflat (mmT (flat x0) (deq (n := 8) x3 x10)) := by
  refine cube_ext fun b s o => ?_
  rw [val_main_v21_apply, scaleS2_eq]
  exact cubeDot x0 _ b s o (lidx_main_v21 (ix3 b s o)) (ridx_main_v21 (ix3 b s o)) (fun _ => (eq_ix3 _).trans rfl) (fun _ => (eq_ix2 _).trans rfl)

theorem sum3_eq : (val_main_v23 (F := Ideal) x0 x1 x2 x3 x4 x5 x8 x9 x10 : Cube 1024)
    = unflat (add3 (mmT (relu (mmT (relu (mmT (flat x0) (deq (n := 32) x1 x8))) x4)) x5) (mmT (flat x0) (deq (n := 8) x2 x9))
        (mmT (flat x0) (deq (n := 8) x3 x10))) := by
  refine cube_ext fun b s o => ?_
  rw [val_main_v23_apply, val_main_v22_apply, wide3_eq, narrow1_eq, narrow2_eq]
  rfl

end Stages

section Norm

variable {x0 : Cube 1024} {x1 : Mat 4096 1024} {x2 x3 : Mat 1024 1024} {x4 : Mat 4096 4096} {x5 : Mat 1024 4096}
  (x6 x7 : Vec1 1024) {x8 : Mat 32 8} {x9 x10 : Mat 8 8}
  {z : Mat 32768 1024} (hz : (val_main_v23 (F := Ideal) x0 x1 x2 x3 x4 x5 x8 x9 x10 : Cube 1024) = unflat z)

include hz

-- With the summed branches unflat z, each row sum starts from the zero word and each quotient is by the word of 1024.
theorem mean_eq (b : Fin 8) (s : Fin 4096) (u : Fin 1) :
    val_main_v27 (F := Ideal) x0 x1 x2 x3 x4 x5 x8 x9 x10 (ix3 b s u) = rowMean z (rowIx b s) := by
  have e : ∀ k : Fin 1024, idx_main_v24 (idx_main_v25 (ix3 b s u)) k = ix3 b s k := fun k => (eq_ix3 _).trans rfl
  rw [val_main_v27_apply, val_main_v25_apply, val_main_v26_apply, val_main_cst_0_apply, val_main_v24_apply, val_main_cst_apply, hz]
  simp only [e, unflat_apply, Ideal.hostDivf_def, Ideal.ofBits_def, Ideal.ofBits_zero_f32, zero_add]
  rfl

theorem centredVar_eq (b : Fin 8) (s : Fin 4096) (q : Fin 1024) :
    val_main_v29 (F := Ideal) x0 x1 x2 x3 x4 x5 x8 x9 x10 (ix3 b s q) = centered z (ix2 (rowIx b s) q) := by
  have e : idx_main_v28 (ix3 b s q) = ix3 b s (⟨0, Nat.one_pos⟩ : Fin 1) := (eq_ix3 _).trans rfl
  rw [val_main_v29_apply, val_main_v28_apply, e, mean_eq hz, hz, unflat_apply]
  rfl

theorem centredOut_eq (b : Fin 8) (s : Fin 4096) (q : Fin 1024) :
    val_main_v36 (F := Ideal) x0 x1 x2 x3 x4 x5 x8 x9 x10 (ix3 b s q) = centered z (ix2 (rowIx b s) q) := by
  have e : idx_main_v35 (ix3 b s q) = ix3 b s (⟨0, Nat.one_pos⟩ : Fin 1) := (eq_ix3 _).trans rfl
  rw [val_main_v36_apply, val_main_v35_apply, e, mean_eq hz, hz, unflat_apply]
  rfl

theorem var_eq (b : Fin 8) (s : Fin 4096) (u : Fin 1) :
    val_main_v34 (F := Ideal) x0 x1 x2 x3 x4 x5 x8 x9 x10 (ix3 b s u) = rowVar z (rowIx b s) := by
  have e : ∀ k : Fin 1024, idx_main_v31 (idx_main_v32 (ix3 b s u)) k = ix3 b s k := fun k => (eq_ix3 _).trans rfl
  rw [val_main_v34_apply, val_main_v32_apply, val_main_v33_apply, val_main_cst_2_apply, val_main_v31_apply, val_main_cst_1_apply]
  simp only [e, val_main_v30_apply, centredVar_eq hz, Ideal.hostDivf_def, Ideal.mulf_def,
    Ideal.ofBits_def, Ideal.ofBits_zero_f32, zero_add]
  rfl

theorem norm_eq : (val_main_v47 (F := Ideal) x0 x1 x2 x3 x4 x5 x6 x7 x8 x9 x10 : Cube 1024)
    = unflat (layerNorm z (row x6) (row x7)) := by
  refine cube_ext fun b s q => ?_
  have e40 : idx_main_v40 (ix3 b s q) = ix3 b s (⟨0, Nat.one_pos⟩ : Fin 1) := (eq_ix3 _).trans rfl
  have e43 : idx_main_v42 (idx_main_v43 (ix3 b s q)) = ix1 q := (eq_ix1 _).trans rfl
  have e46 : idx_main_v45 (idx_main_v46 (ix3 b s q)) = ix1 q := (eq_ix1 _).trans rfl
  rw [val_main_v47_apply, val_main_v46_apply, val_main_v45_apply, e46, val_main_v44_apply, val_main_v43_apply, val_main_v42_apply,
    e43, val_main_v41_apply, val_main_v40_apply, e40, val_main_v39_apply, val_main_v38_apply, val_main_v37_apply,
    val_main_cst_3_apply, var_eq hz, centredOut_eq hz, unflat_apply]
  rfl

end Norm

-- The run's result term is the specification's result of the arguments' launch contents.
theorem result_eq (m : (ℓ : Loc nD τ sig) → Buf (Elt Ideal) ℓ) (c : Dev nD) :
    (Cert.ReferenceIdeal.Value.res_out0 (F := Ideal) m c : Cube 1024)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) :=
  (val_main_v47_eq m c).trans (norm_eq _ _ (sum3_eq _ _ _ _ _ _ _ _ _))

end Cert.ReferenceIdeal.RefValue

end
-- ==== Proof.lean ====
import proofs.«105382_j64407329571549_1_alg».proof.Defs
import proofs.«105382_j64407329571549_1_alg».proof.Proof.Gen.Kernel
import proofs.«105382_j64407329571549_1_alg».proof.Proof.Gen.KernelIdeal
import proofs.«105382_j64407329571549_1_alg».proof.Proof.Gen.ReferenceIdeal
import proofs.«105382_j64407329571549_1_alg».proof.Proof.Gen.Pre_finite_inputs
import proofs.«105382_j64407329571549_1_alg».proof.Proof.K.Frame
import proofs.«105382_j64407329571549_1_alg».proof.Proof.KI.Value
import proofs.«105382_j64407329571549_1_alg».proof.Proof.Ref

noncomputable section

namespace Cert.Proof

open Idealize.ShloMosaic Idealize.ShloMosaic.TcCoe Idealize.SL.Sem

theorem frame_k : Cert.frame_Kernel := fun m ρ _ => Cert.Kernel.Asm.frame (F := Bits) m ρ

theorem frame_ki : Cert.frame_KernelIdeal := fun m ρ _ => Cert.KernelIdeal.Asm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal in
-- Both programs end with Cert.Spec.result of the argument arrays in their result buffers: a product accumulated over two halves
-- of the contracted axis is the product over the whole axis, and a change of number format is the identity on the extended reals.
theorem algebraic : Cert.algebraic_KernelIdeal_ReferenceIdeal := by
  intro m ρ m' ρ' _ hagree
  have hv : MeshRun _ _ _ := Asm.run_main m ρ
  have hf : MeshRun _ _ _ := Asm.frame (F := Ideal) m ρ
  refine ⟨fun c => Gen.V8 m (Asm.outs m) c main_v29, show MeshRun _ _ _ from ⟨fun t ht hd c => ⟨hv.post t ht hd c (Proc.devRef .tc main_v29)
    (Finset.mem_filter.mpr ⟨StableHlo.devRef_mem_tcRefs main_v29, by decide⟩), hf.post t ht hd c⟩, hv.progress, hv.fair⟩, ?_⟩
  refine (θ_run Cert.ReferenceIdeal.defs _ _).mono (fun _ h c => ⟨(h c).1.trans ?_, (h c).2⟩) (Cert.ReferenceIdeal.Value.run (F := Ideal) m' ρ')
  refine (Cert.ReferenceIdeal.RefValue.result_eq m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (Asm.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
